-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  IdealRules.truncf_extf.Statement Cert.KernelIdeal.S2000x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S128x512 : Shape := ⟨2, ![128, 512]⟩
abbrev S1024x512 : Shape := ⟨2, ![1024, 512]⟩
abbrev S512 : Shape := ⟨1, ![512]⟩
abbrev S512x512 : Shape := ⟨2, ![512, 512]⟩
abbrev S100000 : Shape := ⟨1, ![100000]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S100000 : S_.BroadcastsInDim S100000 (![] : Fin 0 → Fin S100000.rank)
  reducesTo_S100000_S_d0 : S100000.ReducesTo [0] S_

variable [Facts]

def fn_part4 {F : FTy → Type} [FloatOps F] (main_arg14 : IVec S100000 32) (main_v63 : IVec S_ 1) (main_v67 : IVec S_ 1) : IVec S_ 1 :=
  let main_v68 : IVec S_ 1 := andi main_v63 main_v67
  let main_c_26 : IVec S_ 32 := constantI S_ 32 0#32
  let main_v69 : IVec S100000 32 := broadcastInDim S100000 ![] bcast_S_S100000 main_c_26
  let main_v70 : IVec S100000 1 := cmpi .sge main_arg14 main_v69
  let main_c_27 : IVec S_ 32 := constantI S_ 32 128#32
  let main_v71 : IVec S100000 32 := broadcastInDim S100000 ![] bcast_S_S100000 main_c_27
  let main_v72 : IVec S100000 1 := cmpi .slt main_arg14 main_v71
  let main_v73 : IVec S100000 1 := andi main_v70 main_v72
  let main_c_28 : IVec S_ 1 := constantI S_ 1 1#1
  let main_v74 : IVec S_ 1 := (fun x v => Host.reduce IntOp.andi x v reducesTo_S100000_S_d0 h_S_) main_v73 main_c_28
  let main_v75 : IVec S_ 1 := andi main_v68 main_v74
  main_v75

def fn_part3 {F : FTy → Type} [FloatOps F] (main_arg11 : FVec F S512 .f32) (main_arg12 : FVec F S512 .f32) (main_arg13 : FVec F S512 .f32) (main_arg14 : IVec S100000 32) (main_v48 : IVec S_ 1) (main_v49 : FVec F S512x512 .f32) (main_v50 : FVec F S512x512 .f32) : IVec S_ 1 :=
  let main_v51 : IVec S512x512 1 := cmpf .olt main_v49 main_v50
  let main_c_19 : IVec S_ 1 := constantI S_ 1 1#1
  let main_v52 : IVec S_ 1 := (fun x v => Host.reduce IntOp.andi x v reducesTo_S512x512_S_d0_1 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg14 main_v63 main_v67

def fn_part2 {F : FTy → Type} [FloatOps F] (main_arg7 : FVec F S512 .f32) (main_arg8 : FVec F S1024x512 .f32) (main_arg9 : FVec F S512 .f32) (main_arg10 : FVec F S512x512 .f32) (main_arg11 : FVec F S512 .f32) (main_arg12 : FVec F S512 .f32) (main_arg13 : FVec F S512 .f32) (main_arg14 : IVec S100000 32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S1024x512 .f32 := Host.absf main_arg8
  let main_cst_14 : FVec F S_ .f32 := constant S_ .f32 0x7F800000#32
  let main_v40 : FVec F S1024x512 .f32 := broadcastInDim S1024x512 ![] bcast_S_S1024x512 main_cst_14
  let main_v41 : IVec S1024x512 1 := cmpf .olt main_v39 main_v40
  let main_c_15 : IVec S_ 1 := constantI S_ 1 1#1
  let main_v42 : IVec S_ 1 := (fun x v => Host.reduce IntOp.andi x v reducesTo_S1024x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512x512 .f32 := Host.absf main_arg10
  let main_cst_18 : FVec F S_ .f32 := constant S_ .f32 0x7F800000#32
  let main_v50 : FVec F S512x512 .f32 := broadcastInDim S512x512 ![] bcast_S_S512x512 main_cst_18
  fn_part3 (F := F) main_arg11 main_arg12 main_arg13 main_arg14 main_v48 main_v49 main_v50

def fn_part1 {F : FTy → Type} [FloatOps F] (main_arg4 : FVec F S512x512 .f32) (main_arg5 : FVec F S512 .f32) (main_arg6 : FVec F S512 .f32) (main_arg7 : FVec F S512 .f32) (main_arg8 : FVec F S1024x512 .f32) (main_arg9 : FVec F S512 .f32) (main_arg10 : FVec F S512x512 .f32) (main_arg11 : FVec F S512 .f32) (main_arg12 : FVec F S512 .f32) (main_arg13 : FVec F S512 .f32) (main_arg14 : IVec S100000 32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S100000x512 .f32) (main_arg1 : FVec F S128x512 .f32) (main_arg2 : FVec F S1024x512 .f32) (main_arg3 : FVec F S512 .f32) (main_arg4 : FVec F S512x512 .f32) (main_arg5 : FVec F S512 .f32) (main_arg6 : FVec F S512 .f32) (main_arg7 : FVec F S512 .f32) (main_arg8 : FVec F S1024x512 .f32) (main_arg9 : FVec F S512 .f32) (main_arg10 : FVec F S512x512 .f32) (main_arg11 : FVec F S512 .f32) (main_arg12 : FVec F S512 .f32) (main_arg13 : FVec F S512 .f32) (main_arg14 : IVec S100000 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S128x512 .f32 := Host.absf main_arg1
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S100000x512 : Shape := ⟨2, ![100000, 512]⟩
abbrev S128x512 : Shape := ⟨2, ![128, 512]⟩
abbrev S1024x512 : Shape := ⟨2, ![1024, 512]⟩
abbrev S512 : Shape := ⟨1, ![512]⟩
abbrev S512x512 : Shape := ⟨2, ![512, 512]⟩
abbrev S100000 : Shape := ⟨1, ![100000]⟩
abbrev S100000x1 : Shape := ⟨2, ![100000, 1]⟩
abbrev S2x128x512 : Shape := ⟨3, ![2, 128, 512]⟩
abbrev S2x1x128 : Shape := ⟨3, ![2, 1, 128]⟩
abbrev S2000x1 : Shape := ⟨2, ![2000, 1]⟩
abbrev S2000x512 : Shape := ⟨2, ![2000, 512]⟩
abbrev S1x128x512 : Shape := ⟨3, ![1, 128, 512]⟩
abbrev S1x1x128 : Shape := ⟨3, ![1, 1, 128]⟩
abbrev S1x128 : Shape := ⟨2, ![1, 128]⟩
abbrev S2000x128 : Shape := ⟨2, ![2000, 128]⟩
abbrev S128 : Shape := ⟨1, ![128]⟩
abbrev S_ : Shape := ⟨0, ![]⟩
abbrev S128x1 : Shape := ⟨2, ![128, 1]⟩
abbrev S1x512 : Shape := ⟨2, ![1, 512]⟩
abbrev S1000x512 : Shape := ⟨2, ![1000, 512]⟩
abbrev S1000x1 : Shape := ⟨2, ![1000, 1]⟩
abbrev S1000x128 : Shape := ⟨2, ![1000, 128]⟩
abbrev S1000 : Shape := ⟨1, ![1000]⟩

abbrev nBuf : Space → Nat
  | .hbm => 48
  | .vmem => 34
  | .smem => 0
  | _ => 0

abbrev bufTy : (tb : Table) → Fin (tcTables nBuf tb) → BufTy
  | .hbm, ⟨0, _⟩ => ⟨S100000x512, .f32⟩
  | .hbm, ⟨1, _⟩ => ⟨S128x512, .f32⟩
  | .hbm, ⟨2, _⟩ => ⟨S1024x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S1024x512, .f32⟩
  | .hbm, ⟨9, _⟩ => ⟨S512, .f32⟩
  | .hbm, ⟨10, _⟩ => ⟨S512x512, .f32⟩
  | .hbm, ⟨11, _⟩ => ⟨S512, .f32⟩
  | .hbm, ⟨12, _⟩ => ⟨S512, .f32⟩
  | .hbm, ⟨13, _⟩ => ⟨S512, .f32⟩
  | .hbm, ⟨14, _⟩ => ⟨S100000, .i32⟩
  | .hbm, ⟨15, _⟩ => ⟨S100000x1, .i32⟩
  | .hbm, ⟨16, _⟩ => ⟨S2x128x512, .f32⟩
  | .hbm, ⟨17, _⟩ => ⟨S2x1x128, .f32⟩
  | .hbm, ⟨18, _⟩ => ⟨S1x128x512, .f32⟩
  | .hbm, ⟨19, _⟩ => ⟨S128x512, .f32⟩
  | .hbm, ⟨20, _⟩ => ⟨S1x128x512, .f32⟩
  | .hbm, ⟨21, _⟩ => ⟨S128x512, .f32⟩
  | .hbm, ⟨22, _⟩ => ⟨S128x512, .f32⟩
  | .hbm, ⟨23, _⟩ => ⟨S1x1x128, .f32⟩
  | .hbm, ⟨24, _⟩ => ⟨S128, .f32⟩
  | .hbm, ⟨25, _⟩ => ⟨S1x1x128, .f32⟩
  | .hbm, ⟨26, _⟩ => ⟨S128, .f32⟩
  | .hbm, ⟨27, _⟩ => ⟨S128, .f32⟩
  | .hbm, ⟨28, _⟩ => ⟨S_, .f32⟩
  | .hbm, ⟨29, _⟩ => ⟨S128, .f32⟩
  | .hbm, ⟨30, _⟩ => ⟨S128, .f32⟩
  | .hbm, ⟨31, _⟩ => ⟨S128x1, .f32⟩
  | .hbm, ⟨32, _⟩ => ⟨S128x512, .f32⟩
  | .hbm, ⟨33, _⟩ => ⟨S128x512, .f32⟩
  | .hbm, ⟨34, _⟩ => ⟨S512x512, .f32⟩
  | .hbm, ⟨35, _⟩ => ⟨S512x512, .f32⟩
  | .hbm, ⟨36, _⟩ => ⟨S512x512, .f32⟩
  | .hbm, ⟨37, _⟩ => ⟨S512x512, .f32⟩
  | .hbm, ⟨38, _⟩ => ⟨S1x512, .f32⟩
  | .hbm, ⟨39, _⟩ => ⟨S1x512, .f32⟩
  | .hbm, ⟨40, _⟩ => ⟨S1x512, .f32⟩
  | .hbm, ⟨41, _⟩ => ⟨S1x512, .f32⟩
  | .hbm, ⟨42, _⟩ => ⟨S128x512, .f32⟩
  | .hbm, ⟨43, _⟩ => ⟨S1x512, .f32⟩
  | .hbm, ⟨44, _⟩ => ⟨S1x512, .f32⟩
  | .hbm, ⟨45, _⟩ => ⟨S1x512, .f32⟩
  | .hbm, ⟨46, _⟩ => ⟨S1x512, .f32⟩
  | .hbm, ⟨47, _⟩ => ⟨S100000x512, .f32⟩
  | .local _ .vmem, ⟨0, _⟩ => ⟨S2000x1, .i32⟩
  | .local _ .vmem, ⟨1, _⟩ => ⟨S2000x1, .i32⟩
  | .local _ .vmem, ⟨2, _⟩ => ⟨S2000x512, .f32⟩
  | .local _ .vmem, ⟨3, _⟩ => ⟨S2000x512, .f32⟩
  | .local _ .vmem, ⟨4, _⟩ => ⟨S1x128x512, .f32⟩
  | .local _ .vmem, ⟨5, _⟩ => ⟨S1x128x512, .f32⟩
  | .local _ .vmem, ⟨6, _⟩ => ⟨S1x1x128, .f32⟩
  | .local _ .vmem, ⟨7, _⟩ => ⟨S1x1x128, .f32⟩
  | .local _ .vmem, ⟨8, _⟩ => ⟨S128x512, .f32⟩
  | .local _ .vmem, ⟨9, _⟩ => ⟨S1x128, .f32⟩
  | .local _ .vmem, ⟨10, _⟩ => ⟨S128x512, .f32⟩
  | .local _ .vmem, ⟨11, _⟩ => ⟨S128x512, .f32⟩
  | .local _ .vmem, ⟨12, _⟩ => ⟨S512x512, .f32⟩
  | .local _ .vmem, ⟨13, _⟩ => ⟨S512x512, .f32⟩
  | .local _ .vmem, ⟨14, _⟩ => ⟨S1x512, .f32⟩
  | .local _ .vmem, ⟨15, _⟩ => ⟨S512x512, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S128x512, .f32⟩
  | .local _ .vmem, ⟨20, _⟩ => ⟨S1000x512, .f32⟩
  | .local _ .vmem, ⟨21, _⟩ => ⟨S1000x512, .f32⟩
  | .local _ .vmem, ⟨22, _⟩ => ⟨S1000x1, .i32⟩
  | .local _ .vmem, ⟨23, _⟩ => ⟨S1000x1, .i32⟩
  | .local _ .vmem, ⟨24, _⟩ => ⟨S128x512, .f32⟩
  | .local _ .vmem, ⟨25, _⟩ => ⟨S512x512, .f32⟩
  | .local _ .vmem, ⟨26, _⟩ => ⟨S512x512, .f32⟩
  | .local _ .vmem, ⟨27, _⟩ => ⟨S1x512, .f32⟩
  | .local _ .vmem, ⟨28, _⟩ => ⟨S512x512, .f32⟩
  | .local _ .vmem, ⟨29, _⟩ => ⟨S1x512, .f32⟩
  | .local _ .vmem, ⟨30, _⟩ => ⟨S1x512, .f32⟩
  | .local _ .vmem, ⟨31, _⟩ => ⟨S1x512, .f32⟩
  | .local _ .vmem, ⟨32, _⟩ => ⟨S1000x512, .f32⟩
  | .local _ .vmem, ⟨33, _⟩ => ⟨S1000x512, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1_0 : Ref sig .tc := ⟨.hbm, 16, rfl⟩
abbrev main_v1_1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg7_0 : Ref sig .tc := ⟨.vmem, 29, rfl⟩
abbrev cc2_stg8_0 : Ref sig .tc := ⟨.vmem, 30, rfl⟩
abbrev cc2_stg9_0 : Ref sig .tc := ⟨.vmem, 31, rfl⟩
abbrev cc2_stg10_0 : Ref sig .tc := ⟨.vmem, 32, rfl⟩
abbrev cc2_stg10_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem8_0 : DmaSem sig := 28
abbrev cc2_sem9_0 : DmaSem sig := 29
abbrev cc2_sem10_0 : DmaSem sig := 30
abbrev cc2_sem10_1 : DmaSem sig := 31

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg1 : BitVec 32 := BitVec.ofNat 32 (i 1).val
  let c24_i32 : BitVec 32 := 24#32
  let v27 : BitVec 1 := Scalar.cmpi .eq arg1 c24_i32
  let v28 : BitVec 32 := Scalar.extui v27
  let c0_i32_13 : BitVec 32 := 0#32
  let v29 : BitVec 1 := Scalar.cmpi .ne v28 c0_i32_13
  v29

def cc0_transform_0 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S128x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S128x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x512 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S512x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S512x512 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x512 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x512 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x512 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S1000x512 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

class Facts₀ : Prop where
  shapeCasts_S100000_S100000x1 : S100000.ShapeCasts S100000x1
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x128_d1_w32 : S2000x128.Iotas .tc 32 [1]
  broadcasts_S2000x1_S2000x128 : S2000x1.Broadcasts S2000x128
  natLt_1_32 : 1 < 32
  bitsLt_bf16_f32 : FTy.bits .bf16 < FTy.bits .f32
  inb_S2000x512_S2000x512_0_0 : ∀ a, (![0, 0] : Fin 2 → Nat) a + S2000x512.size a ≤ S2000x512.size a
  h_S2000x512 : 0 < S2000x512.numel
  reduces_S2000x128_S128 : S2000x128.Reduces [0] S128
  shapeCasts_S128_S1x128 : S128.ShapeCasts S1x128
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  shapeCasts_S128x512_S1x128x512 : S128x512.ShapeCasts S1x128x512
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  slices_S2x128x512_S1x128x512_0_0_0 : S2x128x512.Slices ![0, 0, 0] S1x128x512
  slices_S2x128x512_S1x128x512_1_0_0 : S2x128x512.Slices ![1, 0, 0] S1x128x512
  slices_S2x1x128_S1x1x128_0_0_0 : S2x1x128.Slices ![0, 0, 0] S1x1x128
  shapeCasts_S1x1x128_S128 : S1x1x128.ShapeCasts S128
  slices_S2x1x128_S1x1x128_1_0_0 : S2x1x128.Slices ![1, 0, 0] S1x1x128
  bcast_S_S128 : S_.BroadcastsInDim S128 (![] : Fin 0 → Fin S128.rank)
  bcast_S128_S128x1_0 : S128.BroadcastsInDim S128x1 (![0] : Fin 1 → Fin S128x1.rank)
  bcast_S128x1_S128x512_0_1 : S128x1.BroadcastsInDim S128x512 (![0, 1] : Fin 2 → Fin S128x512.rank)
  slices_S1024x512_S512x512_0_0 : S1024x512.Slices ![0, 0] S512x512
  slices_S1024x512_S512x512_512_0 : S1024x512.Slices ![512, 0] S512x512
  shapeCasts_S512_S1x512 : S512.ShapeCasts S1x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S128x512 : S1x512.Broadcasts S128x512
  reduces_S128x512_S128 : S128x512.Reduces [1] S128
  shapeCasts_S128_S128x1 : S128.ShapeCasts S128x1
  broadcasts_S128x1_S128x512 : S128x1.Broadcasts S128x512
  inb_S1000x512_S1000x512_0_0 : ∀ a, (![0, 0] : Fin 2 → Nat) a + S1000x512.size a ≤ S1000x512.size a
  h_S1000x512 : 0 < S1000x512.numel
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  iota_S1000x128_d1_w32 : S1000x128.Iotas .tc 32 [1]
  broadcasts_S1000x1_S1000x128 : S1000x1.Broadcasts S1000x128
  broadcasts_S1x512_S1000x512 : S1x512.Broadcasts S1000x512
  reduces_S1000x512_S1000 : S1000x512.Reduces [1] S1000
  shapeCasts_S1000_S1000x1 : S1000.ShapeCasts S1000x1
  broadcasts_S1000x1_S1000x512 : S1000x1.Broadcasts S1000x512
  dot_S2000x128_S2000x512_S128x512_0_0_1_1_n_n_wf : DotDims.WF S2000x128 S2000x512 S128x512 [0] [0] [1] [1] [] []
  dot_S128x512_S512x512_S128x512_1_0_0_1_n_n_wf : DotDims.WF S128x512 S512x512 S128x512 [1] [0] [0] [1] [] []
  dot_S1000x128_S128x512_S1000x512_1_0_0_1_n_n_wf : DotDims.WF S1000x128 S128x512 S1000x512 [1] [0] [0] [1] [] []
  dot_S1000x512_S512x512_S1000x512_1_0_0_1_n_n_wf : DotDims.WF S1000x512 S512x512 S1000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1.size a ≤ S100000x1.size a
  hwx0_0 : ∀ i : grid0.Coords, EltTy.bits .i32 = 32 ∨ (Rect.block (s := S100000x1) S2000x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x512.size a ≤ S100000x512.size a
  hwx0_1 : ∀ i : grid0.Coords, EltTy.bits .f32 = 32 ∨ (Rect.block (s := S100000x512) S2000x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x512.size a ≤ S2x128x512.size a
  hwx0_2 : ∀ i : grid0.Coords, EltTy.bits .f32 = 32 ∨ (Rect.block (s := S2x128x512) S1x128x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S2x1x128.size a
  hwx0_3 : ∀ i : grid0.Coords, EltTy.bits .f32 = 32 ∨ (Rect.block (s := S2x1x128) S1x1x128.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S128x512.size a ≤ S128x512.size a
  hwx1_0 : ∀ i : grid1.Coords, EltTy.bits .f32 = 32 ∨ (Rect.block (s := S128x512) S128x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x512.size a ≤ S128x512.size a
  hwx1_1 : ∀ i : grid1.Coords, EltTy.bits .f32 = 32 ∨ (Rect.block (s := S128x512) S128x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .f32 = 32 ∨ (Rect.block (s := S512x512) S512x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .f32 = 32 ∨ (Rect.block (s := S512x512) S512x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x512.size a ≤ S512x512.size a
  hwx1_5 : ∀ i : grid1.Coords, EltTy.bits .f32 = 32 ∨ (Rect.block (s := S512x512) S512x512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x512.size a ≤ S1x512.size a
  hwx1_6 : ∀ i : grid1.Coords, EltTy.bits .f32 = 32 ∨ (Rect.block (s := S1x512) S1x512.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x512.size a ≤ S1x512.size a
  hwx1_7 : ∀ i : grid1.Coords, EltTy.bits .f32 = 32 ∨ (Rect.block (s := S1x512) S1x512.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x512.size a ≤ S1x512.size a
  hwx1_8 : ∀ i : grid1.Coords, EltTy.bits .f32 = 32 ∨ (Rect.block (s := S1x512) S1x512.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128x512.size a ≤ S128x512.size a
  hwx1_9 : ∀ i : grid1.Coords, EltTy.bits .f32 = 32 ∨ (Rect.block (s := S128x512) S128x512.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x512.size a ≤ S100000x512.size a
  hwx2_0 : ∀ i : grid2.Coords, EltTy.bits .f32 = 32 ∨ (Rect.block (s := S100000x512) S1000x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x1.size a ≤ S100000x1.size a
  hwx2_1 : ∀ i : grid2.Coords, EltTy.bits .i32 = 32 ∨ (Rect.block (s := S100000x1) S1000x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x512.size a ≤ S128x512.size a
  hwx2_2 : ∀ i : grid2.Coords, EltTy.bits .f32 = 32 ∨ (Rect.block (s := S128x512) S128x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x512.size a ≤ S512x512.size a
  hwx2_3 : ∀ i : grid2.Coords, EltTy.bits .f32 = 32 ∨ (Rect.block (s := S512x512) S512x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S512x512.size a ≤ S512x512.size a
  hwx2_4 : ∀ i : grid2.Coords, EltTy.bits .f32 = 32 ∨ (Rect.block (s := S512x512) S512x512.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x512.size a ≤ S1x512.size a
  hwx2_5 : ∀ i : grid2.Coords, EltTy.bits .f32 = 32 ∨ (Rect.block (s := S1x512) S1x512.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S512x512.size a ≤ S512x512.size a
  hwx2_6 : ∀ i : grid2.Coords, EltTy.bits .f32 = 32 ∨ (Rect.block (s := S512x512) S512x512.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x512.size a ≤ S1x512.size a
  hwx2_7 : ∀ i : grid2.Coords, EltTy.bits .f32 = 32 ∨ (Rect.block (s := S1x512) S1x512.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x512.size a ≤ S1x512.size a
  hwx2_8 : ∀ i : grid2.Coords, EltTy.bits .f32 = 32 ∨ (Rect.block (s := S1x512) S1x512.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x512.size a ≤ S1x512.size a
  hwx2_9 : ∀ i : grid2.Coords, EltTy.bits .f32 = 32 ∨ (Rect.block (s := S1x512) S1x512.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S1000x512.size a ≤ S100000x512.size a
  hwx2_10 : ∀ i : grid2.Coords, EltTy.bits .f32 = 32 ∨ (Rect.block (s := S100000x512) S1000x512.size (cc2_transform_10 i) (hinb2_10 i)).WholeWords (EltTy.packing .f32)

variable [Facts₀]

def dot_S2000x128_S2000x512_S128x512_0_0_1_1_n_n : DotDims S2000x128 S2000x512 S128x512 where
  lhsContracting := [0]
  rhsContracting := [0]
  lhsNonContracting := [1]
  rhsNonContracting := [1]
  lhsBatch := []
  rhsBatch := []
  wf := dot_S2000x128_S2000x512_S128x512_0_0_1_1_n_n_wf
def dot_S128x512_S512x512_S128x512_1_0_0_1_n_n : DotDims S128x512 S512x512 S128x512 where
  lhsContracting := [1]
  rhsContracting := [0]
  lhsNonContracting := [0]
  rhsNonContracting := [1]
  lhsBatch := []
  rhsBatch := []
  wf := dot_S128x512_S512x512_S128x512_1_0_0_1_n_n_wf
def dot_S1000x128_S128x512_S1000x512_1_0_0_1_n_n : DotDims S1000x128 S128x512 S1000x512 where
  lhsContracting := [1]
  rhsContracting := [0]
  lhsNonContracting := [0]
  rhsNonContracting := [1]
  lhsBatch := []
  rhsBatch := []
  wf := dot_S1000x128_S128x512_S1000x512_1_0_0_1_n_n_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf

abbrev win0_0 : Pipeline.Window sig grid0 :=
  Pipeline.Window.ofSpec (Memref.whole main_v0) S2000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x128x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v16) S128x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S128x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v17) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg4) S512x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v22) S1x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v23) S1x512.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v24) S1x512.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v25) S128x512.size cc1_transform_9 reads1_9 true true 1 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_arg0) S1000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S1000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v25) S128x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v19) S512x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v20) S512x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v26) S1x512.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg10) S512x512.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v27) S1x512.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v28) S1x512.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v29) S1x512.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v30) S1000x512.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

class Facts : Prop extends Facts₀ where

variable [Facts]
-- ==== ReferenceIdeal.lean ====
abbrev S100000x512 : Shape := ⟨2, ![100000, 512]⟩
abbrev S128x512 : Shape := ⟨2, ![128, 512]⟩
abbrev S1024x512 : Shape := ⟨2, ![1024, 512]⟩
abbrev S512 : Shape := ⟨1, ![512]⟩
abbrev S512x512 : Shape := ⟨2, ![512, 512]⟩
abbrev S100000 : Shape := ⟨1, ![100000]⟩
abbrev S_ : Shape := ⟨0, ![]⟩
abbrev S100000x1 : Shape := ⟨2, ![100000, 1]⟩
abbrev S128 : Shape := ⟨1, ![128]⟩
abbrev S128x1 : Shape := ⟨2, ![128, 1]⟩
abbrev S128x1024 : Shape := ⟨2, ![128, 1024]⟩
abbrev S1x512 : Shape := ⟨2, ![1, 512]⟩
abbrev S100000x1024 : Shape := ⟨2, ![100000, 1024]⟩

abbrev nBuf : Space → Nat
  | .hbm => 136
  | .vmem => 0
  | .smem => 0
  | _ => 0

abbrev hbmTy0_0 (i : Nat) : BufTy := match i % 128 with
  | 0 => ⟨S100000x512, .f32⟩
  | 1 => ⟨S128x512, .f32⟩
  | 2 => ⟨S1024x512, .f32⟩
  | 3 => ⟨S512, .f32⟩
  | 4 => ⟨S512x512, .f32⟩
  | 5 => ⟨S512, .f32⟩
  | 6 => ⟨S512, .f32⟩
  | 7 => ⟨S512, .f32⟩
  | 8 => ⟨S1024x512, .f32⟩
  | 9 => ⟨S512, .f32⟩
  | 10 => ⟨S512x512, .f32⟩
  | 11 => ⟨S512, .f32⟩
  | 12 => ⟨S512, .f32⟩
  | 13 => ⟨S512, .f32⟩
  | 14 => ⟨S100000, .i32⟩
  | 15 => ⟨S_, .f32⟩
  | 16 => ⟨S128x512, .f32⟩
  | 17 => ⟨S100000x1, .i32⟩
  | 18 => ⟨S128x512, .f32⟩
  | 19 => ⟨S_, .f32⟩
  | 20 => ⟨S100000, .f32⟩
  | 21 => ⟨S_, .f32⟩
  | 22 => ⟨S128, .f32⟩
  | 23 => ⟨S100000x1, .i32⟩
  | 24 => ⟨S128, .f32⟩
  | 25 => ⟨S_, .f32⟩
  | 26 => ⟨S128, .f32⟩
  | 27 => ⟨S128, .f32⟩
  | 28 => ⟨S128x1, .f32⟩
  | 29 => ⟨S128x512, .f32⟩
  | 30 => ⟨S128x512, .f32⟩
  | 31 => ⟨S128x1024, .f32⟩
  | 32 => ⟨S128x512, .f32⟩
  | 33 => ⟨S1x512, .f32⟩
  | 34 => ⟨S128x512, .f32⟩
  | 35 => ⟨S128x512, .f32⟩
  | 36 => ⟨S128x512, .f32⟩
  | 37 => ⟨S128x512, .f32⟩
  | 38 => ⟨S_, .f32⟩
  | 39 => ⟨S128x512, .f32⟩
  | 40 => ⟨S128x512, .f32⟩
  | 41 => ⟨S_, .f32⟩
  | 42 => ⟨S128x512, .f32⟩
  | 43 => ⟨S128x512, .f32⟩
  | 44 => ⟨S128x512, .f32⟩
  | 45 => ⟨S128x512, .f32⟩
  | 46 => ⟨S1x512, .f32⟩
  | 47 => ⟨S128x512, .f32⟩
  | 48 => ⟨S128x512, .f32⟩
  | 49 => ⟨S128x512, .f32⟩
  | 50 => ⟨S_, .f32⟩
  | 51 => ⟨S128, .f32⟩
  | 52 => ⟨S128x1, .f32⟩
  | 53 => ⟨S_, .f32⟩
  | 54 => ⟨S128x1, .f32⟩
  | 55 => ⟨S128x1, .f32⟩
  | 56 => ⟨S128x512, .f32⟩
  | 57 => ⟨S128x512, .f32⟩
  | 58 => ⟨S128x512, .f32⟩
  | 59 => ⟨S_, .f32⟩
  | 60 => ⟨S128, .f32⟩
  | 61 => ⟨S128x1, .f32⟩
  | 62 => ⟨S_, .f32⟩
  | 63 => ⟨S128x1, .f32⟩
  | 64 => ⟨S128x1, .f32⟩
  | 65 => ⟨S128x512, .f32⟩
  | 66 => ⟨S128x512, .f32⟩
  | 67 => ⟨S_, .f32⟩
  | 68 => ⟨S128x1, .f32⟩
  | 69 => ⟨S128x1, .f32⟩
  | 70 => ⟨S128x1, .f32⟩
  | 71 => ⟨S128x512, .f32⟩
  | 72 => ⟨S128x512, .f32⟩
  | 73 => ⟨S1x512, .f32⟩
  | 74 => ⟨S128x512, .f32⟩
  | 75 => ⟨S128x512, .f32⟩
  | 76 => ⟨S1x512, .f32⟩
  | 77 => ⟨S128x512, .f32⟩
  | 78 => ⟨S128x512, .f32⟩
  | 79 => ⟨S_, .i32⟩
  | 80 => ⟨S100000, .i32⟩
  | 81 => ⟨S100000, .i1⟩
  | 82 => ⟨S_, .i32⟩
  | 83 => ⟨S100000, .i32⟩
  | 84 => ⟨S100000, .i32⟩
  | 85 => ⟨S100000, .i32⟩
  | 86 => ⟨S100000x1, .i32⟩
  | 87 => ⟨S100000x512, .f32⟩
  | 88 => ⟨S100000x1024, .f32⟩
  | 89 => ⟨S100000x512, .f32⟩
  | 90 => ⟨S1x512, .f32⟩
  | 91 => ⟨S100000x512, .f32⟩
  | 92 => ⟨S100000x512, .f32⟩
  | 93 => ⟨S100000x512, .f32⟩
  | 94 => ⟨S100000x512, .f32⟩
  | 95 => ⟨S_, .f32⟩
  | 96 => ⟨S100000x512, .f32⟩
  | 97 => ⟨S100000x512, .f32⟩
  | 98 => ⟨S_, .f32⟩
  | 99 => ⟨S100000x512, .f32⟩
  | 100 => ⟨S100000x512, .f32⟩
  | 101 => ⟨S100000x512, .f32⟩
  | 102 => ⟨S100000x512, .f32⟩
  | 103 => ⟨S1x512, .f32⟩
  | 104 => ⟨S100000x512, .f32⟩
  | 105 => ⟨S100000x512, .f32⟩
  | 106 => ⟨S100000x512, .f32⟩
  | 107 => ⟨S_, .f32⟩
  | 108 => ⟨S100000, .f32⟩
  | 109 => ⟨S100000x1, .f32⟩
  | 110 => ⟨S_, .f32⟩
  | 111 => ⟨S100000x1, .f32⟩
  | 112 => ⟨S100000x1, .f32⟩
  | 113 => ⟨S100000x512, .f32⟩
  | 114 => ⟨S100000x512, .f32⟩
  | 115 => ⟨S100000x512, .f32⟩
  | 116 => ⟨S_, .f32⟩
  | 117 => ⟨S100000, .f32⟩
  | 118 => ⟨S100000x1, .f32⟩
  | 119 => ⟨S_, .f32⟩
  | 120 => ⟨S100000x1, .f32⟩
  | 121 => ⟨S100000x1, .f32⟩
  | 122 => ⟨S100000x512, .f32⟩
  | 123 => ⟨S100000x512, .f32⟩
  | 124 => ⟨S_, .f32⟩
  | 125 => ⟨S100000x1, .f32⟩
  | 126 => ⟨S100000x1, .f32⟩
  | 127 => ⟨S100000x1, .f32⟩
  | _ => ⟨S100000x512, .f32⟩

abbrev hbmTy0_1 (i : Nat) : BufTy := match i % 128 with
  | 0 => ⟨S100000x512, .f32⟩
  | 1 => ⟨S100000x512, .f32⟩
  | 2 => ⟨S1x512, .f32⟩
  | 3 => ⟨S100000x512, .f32⟩
  | 4 => ⟨S100000x512, .f32⟩
  | 5 => ⟨S1x512, .f32⟩
  | 6 => ⟨S100000x512, .f32⟩
  | 7 => ⟨S100000x512, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_cst_0 : Ref sig .tc := ⟨.hbm, 19, rfl⟩
abbrev main_v3 : Ref sig .tc := ⟨.hbm, 20, rfl⟩
abbrev main_cst_1 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst_2 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_cst_3 : Ref sig .tc := ⟨.hbm, 50, rfl⟩
abbrev main_v23 : Ref sig .tc := ⟨.hbm, 51, rfl⟩
abbrev main_v24 : Ref sig .tc := ⟨.hbm, 52, rfl⟩
abbrev main_cst_4 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_cst_5 : Ref sig .tc := ⟨.hbm, 59, rfl⟩
abbrev main_v30 : Ref sig .tc := ⟨.hbm, 60, rfl⟩
abbrev main_v31 : Ref sig .tc := ⟨.hbm, 61, rfl⟩
abbrev main_cst_6 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_cst_7 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_c : Ref sig .tc := ⟨.hbm, 79, rfl⟩
abbrev main_v47 : Ref sig .tc := ⟨.hbm, 80, rfl⟩
abbrev main_v48 : Ref sig .tc := ⟨.hbm, 81, rfl⟩
abbrev main_c_8 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_call1_v0 : Ref sig .tc := ⟨.hbm, 93, rfl⟩
abbrev main_call1_v1 : Ref sig .tc := ⟨.hbm, 94, rfl⟩
abbrev main_call1_cst : Ref sig .tc := ⟨.hbm, 95, rfl⟩
abbrev main_call1_v2 : Ref sig .tc := ⟨.hbm, 96, rfl⟩
abbrev main_call1_v3 : Ref sig .tc := ⟨.hbm, 97, rfl⟩
abbrev main_call1_cst_0 : Ref sig .tc := ⟨.hbm, 98, rfl⟩
abbrev main_call1_v4 : Ref sig .tc := ⟨.hbm, 99, rfl⟩
abbrev main_call1_v5 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_cst_9 : Ref sig .tc := ⟨.hbm, 107, rfl⟩
abbrev main_v65 : Ref sig .tc := ⟨.hbm, 108, rfl⟩
abbrev main_v66 : Ref sig .tc := ⟨.hbm, 109, rfl⟩
abbrev main_cst_10 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_cst_11 : Ref sig .tc := ⟨.hbm, 116, rfl⟩
abbrev main_v72 : Ref sig .tc := ⟨.hbm, 117, rfl⟩
abbrev main_v73 : Ref sig .tc := ⟨.hbm, 118, rfl⟩
abbrev main_cst_12 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_cst_13 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩

abbrev nD : Nat := 1
abbrev τ : Topo := Topo.v7x

variable {F : FTy → Type} [FloatOps F]

class Facts₀ : Prop where
  bcast_S_S128x512 : S_.BroadcastsInDim S128x512 (![] : Fin 0 → Fin S128x512.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S128 : S_.BroadcastsInDim S128 (![] : Fin 0 → Fin S128.rank)
  bcast_S128_S128x1_0 : S128.BroadcastsInDim S128x1 (![0] : Fin 1 → Fin S128x1.rank)
  bcast_S128x1_S128x512_0_1 : S128x1.BroadcastsInDim S128x512 (![0, 1] : Fin 2 → Fin S128x512.rank)
  concatenates_S128x512_S128x512_S128x1024_d1 : Shape.Concatenates [S128x512, S128x512] S128x1024 1
  bcast_S512_S1x512_1 : S512.BroadcastsInDim S1x512 (![1] : Fin 1 → Fin S1x512.rank)
  bcast_S1x512_S128x512_0_1 : S1x512.BroadcastsInDim S128x512 (![0, 1] : Fin 2 → Fin S128x512.rank)
  reducesTo_S128x512_S128_d1 : S128x512.ReducesTo [1] S128
  h_S_ : 0 < S_.numel
  bcast_S_S128x1 : S_.BroadcastsInDim S128x1 (![] : Fin 0 → Fin S128x1.rank)
  concatenates_S100000x512_S100000x512_S100000x1024_d1 : Shape.Concatenates [S100000x512, S100000x512] S100000x1024 1
  bcast_S1x512_S100000x512_0_1 : S1x512.BroadcastsInDim S100000x512 (![0, 1] : Fin 2 → Fin S100000x512.rank)
  bcast_S_S100000x512 : S_.BroadcastsInDim S100000x512 (![] : Fin 0 → Fin S100000x512.rank)
  reducesTo_S100000x512_S100000_d1 : S100000x512.ReducesTo [1] S100000
  bcast_S_S100000x1 : S_.BroadcastsInDim S100000x1 (![] : Fin 0 → Fin S100000x1.rank)
  bcast_S100000x1_S100000x512_0_1 : S100000x1.BroadcastsInDim S100000x512 (![0, 1] : Fin 2 → Fin S100000x512.rank)
  scatter_S128x512_S100000x1_S100000x512_1_0_0_1_wf : ScatterDims.WF S128x512 S100000x1 S100000x512 [1] [0] [0] 1
  scatter_S128_S100000x1_S100000_n_0_0_1_wf : ScatterDims.WF S128 S100000x1 S100000 [] [0] [0] 1
  dot_S128x1024_S1024x512_S128x512_1_0_0_1_n_n_wf : DotDims.WF S128x1024 S1024x512 S128x512 [1] [0] [0] [1] [] []
  dot_S128x512_S512x512_S128x512_1_0_0_1_n_n_wf : DotDims.WF S128x512 S512x512 S128x512 [1] [0] [0] [1] [] []
  gather_S128x512_S100000x1_S100000x512_1_0_n_n_0_1_1512_wf : GatherDims.WF S128x512 S100000x1 S100000x512 [1] [0] [] [0] [] 1 ![1, 512]
  dot_S100000x1024_S1024x512_S100000x512_1_0_0_1_n_n_wf : DotDims.WF S100000x1024 S1024x512 S100000x512 [1] [0] [0] [1] [] []
  dot_S100000x512_S512x512_S100000x512_1_0_0_1_n_n_wf : DotDims.WF S100000x512 S512x512 S100000x512 [1] [0] [0] [1] [] []

variable [Facts₀]

def scatter_S128x512_S100000x1_S100000x512_1_0_0_1 : ScatterDims S128x512 S100000x1 S100000x512 where
  updateWindowDims := [1]
  insertedWindowDims := [0]
  scatterDimsToOperandDims := [0]
  indexVectorDim := 1
  wf := scatter_S128x512_S100000x1_S100000x512_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x1024_S1024x512_S128x512_1_0_0_1_n_n : DotDims S128x1024 S1024x512 S128x512 where
  lhsContracting := [1]
  rhsContracting := [0]
  lhsNonContracting := [0]
  rhsNonContracting := [1]
  lhsBatch := []
  rhsBatch := []
  wf := dot_S128x1024_S1024x512_S128x512_1_0_0_1_n_n_wf
def dot_S128x512_S512x512_S128x512_1_0_0_1_n_n : DotDims S128x512 S512x512 S128x512 where
  lhsContracting := [1]
  rhsContracting := [0]
  lhsNonContracting := [0]
  rhsNonContracting := [1]
  lhsBatch := []
  rhsBatch := []
  wf := dot_S128x512_S512x512_S128x512_1_0_0_1_n_n_wf
def gather_S128x512_S100000x1_S100000x512_1_0_n_n_0_1_1512 : GatherDims S128x512 S100000x1 S100000x512 where
  offsetDims := [1]
  collapsedSliceDims := [0]
  operandBatchingDims := []
  startIndicesBatchingDims := []
  startIndexMap := [0]
  indexVectorDim := 1
  sliceSizes := ![1, 512]
  wf := gather_S128x512_S100000x1_S100000x512_1_0_n_n_0_1_1512_wf
def dot_S100000x1024_S1024x512_S100000x512_1_0_0_1_n_n : DotDims S100000x1024 S1024x512 S100000x512 where
  lhsContracting := [1]
  rhsContracting := [0]
  lhsNonContracting := [0]
  rhsNonContracting := [1]
  lhsBatch := []
  rhsBatch := []
  wf := dot_S100000x1024_S1024x512_S100000x512_1_0_0_1_n_n_wf
def dot_S100000x512_S512x512_S100000x512_1_0_0_1_n_n : DotDims S100000x512 S512x512 S100000x512 where
  lhsContracting := [1]
  rhsContracting := [0]
  lhsNonContracting := [0]
  rhsNonContracting := [1]
  lhsBatch := []
  rhsBatch := []
  wf := dot_S100000x512_S512x512_S100000x512_1_0_0_1_n_n_wf

class Facts : Prop extends Facts₀ where

variable [Facts]
-- ==== Proof.BitsPoolCases.lean ====
import proofs.«419202_j25975962206499_3_alg».proof.Proof.Gen.Kernel.Launch
import proofs.«419202_j25975962206499_3_alg».proof.Proof.Gen.Kernel.Skeleton
import proofs.«419202_j25975962206499_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Pool

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The point is the first row block of its half: positions ≡ 0 (mod 25). -/
abbrev condFirst (i : grid0.Coords) : Prop := (Scalar.cmpi .ne (Scalar.extui (Scalar.cmpi .eq (BitVec.ofNat 32 (i 1).val) 0#32)) 0#32) = 1#1

theorem hcondFirst : ∀ t : Fin cfg0.N, condFirst (grid0.coords t) ↔ t.val % 25 = 0 :=
  (by decide +kernel : ∀ t : Fin grid0.N, condFirst (grid0.coords t) ↔ t.val % 25 = 0)

/-- The point is the last row block of its half: positions ≡ 24 (mod 25). -/
abbrev condLast (i : grid0.Coords) : Prop := k0_cond2 i = 1#1

theorem hcondLast : ∀ t : Fin cfg0.N, condLast (grid0.coords t) ↔ t.val % 25 = 24 :=
  (by decide +kernel : ∀ t : Fin grid0.N, condLast (grid0.coords t) ↔ t.val % 25 = 24)

theorem idle2 : ∀ t : Fin cfg0.N, ¬condLast (grid0.coords t) → cfg0.idle 2 (grid0.coords t) = true := by decide +kernel
theorem noFlush2 : ∀ t : Fin cfg0.N, ¬condLast (grid0.coords t) → (cfg0.win 2).flush t = false := by decide +kernel
theorem idle3 : ∀ t : Fin cfg0.N, ¬condLast (grid0.coords t) → cfg0.idle 3 (grid0.coords t) = true := by decide +kernel
theorem noFlush3 : ∀ t : Fin cfg0.N, ¬condLast (grid0.coords t) → (cfg0.win 3).flush t = false := by decide +kernel

theorem live2 : ∀ t : Fin cfg0.N, condLast (grid0.coords t) → cfg0.idle 2 (grid0.coords t) = false := by decide +kernel
theorem live3 : ∀ t : Fin cfg0.N, condLast (grid0.coords t) → cfg0.idle 3 (grid0.coords t) = false := by decide +kernel

abbrev VO2 : View sig .tc .vmem S1x128x512 .f32 := (Memref.whole cc0_stg2_0 : Memref sig .tc .vmem S1x128x512 .f32).view
abbrev VO3 : View sig .tc .vmem S1x1x128 .f32 := (Memref.whole cc0_stg3_0 : Memref sig .tc .vmem S1x1x128 .f32).view

abbrev ms0 (t : Fin cfg0.N) : Memref sig .tc .vmem S2000x1 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2000x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x128x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x128 .f32 := win0_3.stage (cfg0.slots t 3)
abbrev hs3 (t : Fin cfg0.N) : (ms3 t).IsWhole := hstage0_3 ((cfg0.slots t 3).cast nbuf0_3)

abbrev accM : Memref sig .tc .vmem S128x512 .f32 := Memref.whole cc0_scratch0
abbrev cntM : Memref sig .tc .vmem S1x128 .f32 := Memref.whole cc0_scratch1
abbrev VAcc : View sig .tc .vmem S128x512 .f32 := accM.view
abbrev VCnt : View sig .tc .vmem S1x128 .f32 := cntM.view

abbrev restBut (c : Dev nD) : sProp 𝕄 :=
  Pipeline.scopedRestBut (Ix := Unit) (Name := ℕ) (U := UR sig nD τ) (Lvl := ℕ) (Val := Elt F) spec0 c [cc0_scratch0, cc0_scratch1]

/-- The region's invariant with the two accumulators split off. -/
theorem PhiA_eq (c : Dev nD) :
    (Pipeline.ΦA spec0 c : sProp 𝕄)
      = iprop(iprop(iprop((∃ d, owns (c : Thread nD τ) accM fullShare d) ∗ (∃ d, owns (c : Thread nD τ) cntM fullShare d)) ∗ restBut (F := F) c) ∗ (∃ r, prngReg c r)) := by
  unfold Pipeline.ΦA; rw [scopedRest0_split]; simp only [accM, cntM, owns_whole]; try rfl

end Cert.Kernel.Pool

end
-- ==== Proof.BitsPoolRunA.lean ====
import proofs.«419202_j25975962206499_3_alg».proof.Proof.BitsPoolCases

noncomputable section

namespace Cert.Kernel.Pool

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Cert.Kernel Cert.Kernel.Gen

variable {F : FTy → Type} [FloatOps F]

local notation "𝕄" => MT nD τ sig Unit (Elt F) ℕ (UR sig nD τ) ℕ

set_option maxHeartbeats 1000000 in
def kernelRun_A (c : Dev nD) (i : grid0.Coords) (arg2 : Memref sig .tc .vmem S2000x1 .i32) (harg2 : arg2.IsWhole) (arg3 : Memref sig .tc .vmem S2000x512 .f32) (harg3 : arg3.IsWhole) (arg4 : Memref sig .tc .vmem S1x128x512 .f32) (harg4 : arg4.IsWhole) (arg5 : Memref sig .tc .vmem S1x1x128 .f32) (harg5 : arg5.IsWhole) (arg6 : Memref sig .tc .vmem S128x512 .f32) (harg6 : arg6.IsWhole) (arg7 : Memref sig .tc .vmem S1x128 .f32) (harg7 : arg7.IsWhole) (hc0 : condFirst i) (hc1 : ¬condLast i)
    (x0 : Vec F S2000x1 .i32) (x1 : Vec F S2000x512 .f32) :
    Σ' (L2 : List (View.Piece (Elt F) S1x128x512 .f32)), Σ' (L3 : List (View.Piece (Elt F) S1x1x128 .f32)), Σ' (LS0 : List (View.Piece (Elt F) S128x512 .f32)), { LS1 : List (View.Piece (Elt F) S1x128 .f32) //
      ∀ (xi2 : Vec F S1x128x512 .f32) (xi3 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__segsum_kernel i arg2 harg2 arg3 harg3 arg4 harg4 arg5 harg5 arg6 harg6 arg7 harg7) K } := by
  refine ⟨[], [], ?_, ?_, fun xi2 xi3 E K => ?run⟩
  case run =>
    simp only [cc0__segsum_kernel_eq_skeleton]; unfold cc0__segsum_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Pool

end
-- ==== Proof.BitsPoolRunB.lean ====
import proofs.«419202_j25975962206499_3_alg».proof.Proof.BitsPoolRunA

noncomputable section

namespace Cert.Kernel.Pool

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Cert.Kernel Cert.Kernel.Gen

variable {F : FTy → Type} [FloatOps F]

local notation "𝕄" => MT nD τ sig Unit (Elt F) ℕ (UR sig nD τ) ℕ

set_option maxHeartbeats 1000000 in
def kernelRun_B (c : Dev nD) (i : grid0.Coords) (arg2 : Memref sig .tc .vmem S2000x1 .i32) (harg2 : arg2.IsWhole) (arg3 : Memref sig .tc .vmem S2000x512 .f32) (harg3 : arg3.IsWhole) (arg4 : Memref sig .tc .vmem S1x128x512 .f32) (harg4 : arg4.IsWhole) (arg5 : Memref sig .tc .vmem S1x1x128 .f32) (harg5 : arg5.IsWhole) (arg6 : Memref sig .tc .vmem S128x512 .f32) (harg6 : arg6.IsWhole) (arg7 : Memref sig .tc .vmem S1x128 .f32) (harg7 : arg7.IsWhole) (hc0 : ¬condFirst i) (hc1 : ¬condLast i)
    (x0 : Vec F S2000x1 .i32) (x1 : Vec F S2000x512 .f32) (xs0 : Vec F S128x512 .f32) (xs1 : Vec F S1x128 .f32) :
    Σ' (L2 : List (View.Piece (Elt F) S1x128x512 .f32)), Σ' (L3 : List (View.Piece (Elt F) S1x1x128 .f32)), Σ' (LS0 : List (View.Piece (Elt F) S128x512 .f32)), { LS1 : List (View.Piece (Elt F) S1x128 .f32) //
      ∀ (xi2 : Vec F S1x128x512 .f32) (xi3 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__segsum_kernel i arg2 harg2 arg3 harg3 arg4 harg4 arg5 harg5 arg6 harg6 arg7 harg7) K } := by
  refine ⟨[], [], ?_, ?_, fun xi2 xi3 E K => ?run⟩
  case run =>
    simp only [cc0__segsum_kernel_eq_skeleton]; unfold cc0__segsum_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Pool

end
-- ==== Proof.BitsPoolRunC.lean ====
import proofs.«419202_j25975962206499_3_alg».proof.Proof.BitsPoolRunB

noncomputable section

namespace Cert.Kernel.Pool

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Cert.Kernel Cert.Kernel.Gen

variable {F : FTy → Type} [FloatOps F]

local notation "𝕄" => MT nD τ sig Unit (Elt F) ℕ (UR sig nD τ) ℕ

set_option maxHeartbeats 1000000 in
def kernelRun_C (c : Dev nD) (i : grid0.Coords) (arg2 : Memref sig .tc .vmem S2000x1 .i32) (harg2 : arg2.IsWhole) (arg3 : Memref sig .tc .vmem S2000x512 .f32) (harg3 : arg3.IsWhole) (arg4 : Memref sig .tc .vmem S1x128x512 .f32) (harg4 : arg4.IsWhole) (arg5 : Memref sig .tc .vmem S1x1x128 .f32) (harg5 : arg5.IsWhole) (arg6 : Memref sig .tc .vmem S128x512 .f32) (harg6 : arg6.IsWhole) (arg7 : Memref sig .tc .vmem S1x128 .f32) (harg7 : arg7.IsWhole) (hc0 : ¬condFirst i) (hc1 : condLast i)
    (x0 : Vec F S2000x1 .i32) (x1 : Vec F S2000x512 .f32) (xs0 : Vec F S128x512 .f32) (xs1 : Vec F S1x128 .f32) :
    Σ' (L2 : List (View.Piece (Elt F) S1x128x512 .f32)), Σ' (L3 : List (View.Piece (Elt F) S1x1x128 .f32)), Σ' (LS0 : List (View.Piece (Elt F) S128x512 .f32)), { LS1 : List (View.Piece (Elt F) S1x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__segsum_kernel i arg2 harg2 arg3 harg3 arg4 harg4 arg5 harg5 arg6 harg6 arg7 harg7) K } := by
  refine ⟨?_, ?_, ?_, ?_, fun E K => ?run⟩
  case run =>
    simp only [cc0__segsum_kernel_eq_skeleton]; unfold cc0__segsum_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    iexists _; iexact HS1

end Cert.Kernel.Pool

end
-- ==== Proof.BitsPoolData.lean ====
import proofs.«419202_j25975962206499_3_alg».proof.Proof.BitsPoolRunC

noncomputable section

namespace Cert.Kernel.Pool

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

/-- Pieces that cover a buffer leave it reading what they alone write, whatever it held. -/
theorem owns_writes {s : Shape} {e : EltTy} {m : Memref sig .tc .vmem s e} (v : View sig .tc .vmem s e) {L : List (View.Piece (Elt F) s e)}
    (h : ∀ y, ∃ p ∈ L, y ∈ p.1.set) :
    (iprop(∃ f, m.view.loc (c : Thread nD τ) ↦[m.view.set]{fullShare} m.view.writes (Elt F) f L) : sProp 𝕄)
      ⊢ owns (c : Thread nD τ) m fullShare (v.read (Elt F) (v.writes (Elt F) v.junk L)) := by
  unfold owns; iintro ⟨%f, H⟩; iexists _; isplitr; swap; · iexact H
  ipureintro; exact View.read_writes_of_cover _ _ _ _ _ h

section
variable (i : grid0.Coords) (arg2 : Memref sig .tc .vmem S2000x1 .i32) (harg2 : arg2.IsWhole) (arg3 : Memref sig .tc .vmem S2000x512 .f32) (harg3 : arg3.IsWhole) (arg4 : Memref sig .tc .vmem S1x128x512 .f32) (harg4 : arg4.IsWhole) (arg5 : Memref sig .tc .vmem S1x1x128 .f32) (harg5 : arg5.IsWhole) (arg6 : Memref sig .tc .vmem S128x512 .f32) (harg6 : arg6.IsWhole) (arg7 : Memref sig .tc .vmem S1x128 .f32) (harg7 : arg7.IsWhole)

section
variable (hc0 : condFirst i) (hc1 : ¬condLast i) (x0 : Vec F S2000x1 .i32) (x1 : Vec F S2000x512 .f32)
theorem cover_A_acc (y : S128x512.Idx) : ∃ pc ∈ (kernelRun_A c i arg2 harg2 arg3 harg3 arg4 harg4 arg5 harg5 arg6 harg6 arg7 harg7 hc0 hc1 x0 x1).2.2.1, y ∈ pc.1.set :=
  View.cover_of_tiledL _ S128x512.size (by sl_kernel_rfl) y
def acc_A : Vec F S128x512 .f32 := VAcc.read (Elt F) (VAcc.writes (Elt F) VAcc.junk (kernelRun_A c i arg2 harg2 arg3 harg3 arg4 harg4 arg5 harg5 arg6 harg6 arg7 harg7 hc0 hc1 x0 x1).2.2.1)
theorem cover_A_cnt (y : S1x128.Idx) : ∃ pc ∈ (kernelRun_A c i arg2 harg2 arg3 harg3 arg4 harg4 arg5 harg5 arg6 harg6 arg7 harg7 hc0 hc1 x0 x1).2.2.2.1, y ∈ pc.1.set :=
  View.cover_of_tiledL _ S1x128.size (by sl_kernel_rfl) y
def cnt_A : Vec F S1x128 .f32 := VCnt.read (Elt F) (VCnt.writes (Elt F) VCnt.junk (kernelRun_A c i arg2 harg2 arg3 harg3 arg4 harg4 arg5 harg5 arg6 harg6 arg7 harg7 hc0 hc1 x0 x1).2.2.2.1)
end

section
variable (hc0 : ¬condFirst i) (hc1 : ¬condLast i) (x0 : Vec F S2000x1 .i32) (x1 : Vec F S2000x512 .f32) (xs0 : Vec F S128x512 .f32) (xs1 : Vec F S1x128 .f32)
theorem cover_B_acc (y : S128x512.Idx) : ∃ pc ∈ (kernelRun_B c i arg2 harg2 arg3 harg3 arg4 harg4 arg5 harg5 arg6 harg6 arg7 harg7 hc0 hc1 x0 x1 xs0 xs1).2.2.1, y ∈ pc.1.set :=
  View.cover_of_tiledL _ S128x512.size (by sl_kernel_rfl) y
def acc_B : Vec F S128x512 .f32 := VAcc.read (Elt F) (VAcc.writes (Elt F) VAcc.junk (kernelRun_B c i arg2 harg2 arg3 harg3 arg4 harg4 arg5 harg5 arg6 harg6 arg7 harg7 hc0 hc1 x0 x1 xs0 xs1).2.2.1)
theorem cover_B_cnt (y : S1x128.Idx) : ∃ pc ∈ (kernelRun_B c i arg2 harg2 arg3 harg3 arg4 harg4 arg5 harg5 arg6 harg6 arg7 harg7 hc0 hc1 x0 x1 xs0 xs1).2.2.2.1, y ∈ pc.1.set :=
  View.cover_of_tiledL _ S1x128.size (by sl_kernel_rfl) y
def cnt_B : Vec F S1x128 .f32 := VCnt.read (Elt F) (VCnt.writes (Elt F) VCnt.junk (kernelRun_B c i arg2 harg2 arg3 harg3 arg4 harg4 arg5 harg5 arg6 harg6 arg7 harg7 hc0 hc1 x0 x1 xs0 xs1).2.2.2.1)
end

section
variable (hc0 : ¬condFirst i) (hc1 : condLast i) (x0 : Vec F S2000x1 .i32) (x1 : Vec F S2000x512 .f32) (xs0 : Vec F S128x512 .f32) (xs1 : Vec F S1x128 .f32)
theorem cover_C_out2 (y : S1x128x512.Idx) : ∃ pc ∈ (kernelRun_C c i arg2 harg2 arg3 harg3 arg4 harg4 arg5 harg5 arg6 harg6 arg7 harg7 hc0 hc1 x0 x1 xs0 xs1).1, y ∈ pc.1.set :=
  View.cover_of_tiledL _ S1x128x512.size (by sl_kernel_rfl) y
def out2_C : Vec F S1x128x512 .f32 := VO2.read (Elt F) (VO2.writes (Elt F) VO2.junk (kernelRun_C c i arg2 harg2 arg3 harg3 arg4 harg4 arg5 harg5 arg6 harg6 arg7 harg7 hc0 hc1 x0 x1 xs0 xs1).1)
theorem cover_C_out3 (y : S1x1x128.Idx) : ∃ pc ∈ (kernelRun_C c i arg2 harg2 arg3 harg3 arg4 harg4 arg5 harg5 arg6 harg6 arg7 harg7 hc0 hc1 x0 x1 xs0 xs1).2.1, y ∈ pc.1.set :=
  View.cover_of_tiledL _ S1x1x128.size (by sl_kernel_rfl) y
def out3_C : Vec F S1x1x128 .f32 := VO3.read (Elt F) (VO3.writes (Elt F) VO3.junk (kernelRun_C c i arg2 harg2 arg3 harg3 arg4 harg4 arg5 harg5 arg6 harg6 arg7 harg7 hc0 hc1 x0 x1 xs0 xs1).2.1)
theorem cover_C_acc (y : S128x512.Idx) : ∃ pc ∈ (kernelRun_C c i arg2 harg2 arg3 harg3 arg4 harg4 arg5 harg5 arg6 harg6 arg7 harg7 hc0 hc1 x0 x1 xs0 xs1).2.2.1, y ∈ pc.1.set :=
  View.cover_of_tiledL _ S128x512.size (by sl_kernel_rfl) y
def acc_C : Vec F S128x512 .f32 := VAcc.read (Elt F) (VAcc.writes (Elt F) VAcc.junk (kernelRun_C c i arg2 harg2 arg3 harg3 arg4 harg4 arg5 harg5 arg6 harg6 arg7 harg7 hc0 hc1 x0 x1 xs0 xs1).2.2.1)
theorem cover_C_cnt (y : S1x128.Idx) : ∃ pc ∈ (kernelRun_C c i arg2 harg2 arg3 harg3 arg4 harg4 arg5 harg5 arg6 harg6 arg7 harg7 hc0 hc1 x0 x1 xs0 xs1).2.2.2.1, y ∈ pc.1.set :=
  View.cover_of_tiledL _ S1x128.size (by sl_kernel_rfl) y
def cnt_C : Vec F S1x128 .f32 := VCnt.read (Elt F) (VCnt.writes (Elt F) VCnt.junk (kernelRun_C c i arg2 harg2 arg3 harg3 arg4 harg4 arg5 harg5 arg6 harg6 arg7 harg7 hc0 hc1 x0 x1 xs0 xs1).2.2.2.1)
end

end

abbrev Quad (F : FTy → Type) [FloatOps F] : Type := Vec F S1x128x512 .f32 × Vec F S1x1x128 .f32 × Vec F S128x512 .f32 × Vec F S1x128 .f32

/-- A half's first point: the accumulators are reset and the block added; the two output blocks are not written, their entries here never consulted. -/
def atA (t : Fin cfg0.N) (h0 : t.val % 25 = 0) (h1 : ¬t.val % 25 = 24) : Quad F :=
  (VO2.read (Elt F) VO2.junk, VO3.read (Elt F) VO3.junk,
   acc_A c (grid0.coords t) (ms0 t) (hs0 t) (ms1 t) (hs1 t) (ms2 t) (hs2 t) (ms3 t) (hs3 t) accM (Memref.isWhole_whole _) cntM (Memref.isWhole_whole _) ((hcondFirst t).mpr h0) (fun h => h1 ((hcondLast t).mp h)) (iblk V c 0 t) (iblk V c 1 t),
   cnt_A c (grid0.coords t) (ms0 t) (hs0 t) (ms1 t) (hs1 t) (ms2 t) (hs2 t) (ms3 t) (hs3 t) accM (Memref.isWhole_whole _) cntM (Memref.isWhole_whole _) ((hcondFirst t).mpr h0) (fun h => h1 ((hcondLast t).mp h)) (iblk V c 0 t) (iblk V c 1 t))

/-- A middle point: the block is added to what the point before left; the output blocks are not written either. -/
def atB (t : Fin cfg0.N) (h0 : ¬t.val % 25 = 0) (h1 : ¬t.val % 25 = 24) (xs0 : Vec F S128x512 .f32) (xs1 : Vec F S1x128 .f32) : Quad F :=
  (VO2.read (Elt F) VO2.junk, VO3.read (Elt F) VO3.junk,
   acc_B c (grid0.coords t) (ms0 t) (hs0 t) (ms1 t) (hs1 t) (ms2 t) (hs2 t) (ms3 t) (hs3 t) accM (Memref.isWhole_whole _) cntM (Memref.isWhole_whole _) (fun h => h0 ((hcondFirst t).mp h)) (fun h => h1 ((hcondLast t).mp h)) (iblk V c 0 t) (iblk V c 1 t) xs0 xs1,
   cnt_B c (grid0.coords t) (ms0 t) (hs0 t) (ms1 t) (hs1 t) (ms2 t) (hs2 t) (ms3 t) (hs3 t) accM (Memref.isWhole_whole _) cntM (Memref.isWhole_whole _) (fun h => h0 ((hcondFirst t).mp h)) (fun h => h1 ((hcondLast t).mp h)) (iblk V c 0 t) (iblk V c 1 t) xs0 xs1)

/-- A half's last point: the block is added and the accumulators are re-laid into the two output blocks. -/
def atC (t : Fin cfg0.N) (h0 : ¬t.val % 25 = 0) (h1 : t.val % 25 = 24) (xs0 : Vec F S128x512 .f32) (xs1 : Vec F S1x128 .f32) : Quad F :=
  (out2_C c (grid0.coords t) (ms0 t) (hs0 t) (ms1 t) (hs1 t) (ms2 t) (hs2 t) (ms3 t) (hs3 t) accM (Memref.isWhole_whole _) cntM (Memref.isWhole_whole _) (fun h => h0 ((hcondFirst t).mp h)) ((hcondLast t).mpr h1) (iblk V c 0 t) (iblk V c 1 t) xs0 xs1,
   out3_C c (grid0.coords t) (ms0 t) (hs0 t) (ms1 t) (hs1 t) (ms2 t) (hs2 t) (ms3 t) (hs3 t) accM (Memref.isWhole_whole _) cntM (Memref.isWhole_whole _) (fun h => h0 ((hcondFirst t).mp h)) ((hcondLast t).mpr h1) (iblk V c 0 t) (iblk V c 1 t) xs0 xs1,
   acc_C c (grid0.coords t) (ms0 t) (hs0 t) (ms1 t) (hs1 t) (ms2 t) (hs2 t) (ms3 t) (hs3 t) accM (Memref.isWhole_whole _) cntM (Memref.isWhole_whole _) (fun h => h0 ((hcondFirst t).mp h)) ((hcondLast t).mpr h1) (iblk V c 0 t) (iblk V c 1 t) xs0 xs1,
   cnt_C c (grid0.coords t) (ms0 t) (hs0 t) (ms1 t) (hs1 t) (ms2 t) (hs2 t) (ms3 t) (hs3 t) accM (Memref.isWhole_whole _) cntM (Memref.isWhole_whole _) (fun h => h0 ((hcondFirst t).mp h)) ((hcondLast t).mpr h1) (iblk V c 0 t) (iblk V c 1 t) xs0 xs1)

/-- The four contents after position `n`, by recursion: only a half's first point does not start from what `n - 1` left. -/
def outsAt : (n : ℕ) → n < cfg0.N → Vec F S1x128x512 .f32 × Vec F S1x1x128 .f32 × Vec F S128x512 .f32 × Vec F S1x128 .f32
  | 0, hn => atA V c ⟨0, hn⟩ (Nat.zero_mod _) (by show ¬(0 % 25 = 24); decide)
  | n + 1, hn =>
    if h0 : (n + 1) % 25 = 0 then atA V c ⟨n + 1, hn⟩ h0 (by show ¬(n + 1) % 25 = 24; omega)
    else if h1 : (n + 1) % 25 = 24 then
      atC V c ⟨n + 1, hn⟩ h0 h1 (outsAt n (Nat.lt_of_succ_lt hn)).2.2.1 (outsAt n (Nat.lt_of_succ_lt hn)).2.2.2
    else atB V c ⟨n + 1, hn⟩ h0 h1 (outsAt n (Nat.lt_of_succ_lt hn)).2.2.1 (outsAt n (Nat.lt_of_succ_lt hn)).2.2.2

theorem outsAt_A (t : Fin cfg0.N) (h0 : t.val % 25 = 0) (h1 : ¬t.val % 25 = 24) :
    outsAt V c t.val t.isLt = atA V c t h0 h1 := by
  obtain ⟨_ | n, hn⟩ := t
  · rfl
  · exact dif_pos h0

theorem outsAt_B (t : Fin cfg0.N) (h0 : ¬t.val % 25 = 0) (h1 : ¬t.val % 25 = 24) :
    outsAt V c t.val t.isLt = atB V c t h0 h1 (outsAt V c (t.val - 1) (Nat.lt_of_le_of_lt (Nat.sub_le _ _) t.isLt)).2.2.1 (outsAt V c (t.val - 1) (Nat.lt_of_le_of_lt (Nat.sub_le _ _) t.isLt)).2.2.2 := by
  obtain ⟨_ | n, hn⟩ := t
  · exact absurd (Nat.zero_mod _) h0
  · exact (dif_neg h0).trans ((dif_neg h1).trans rfl)

theorem outsAt_C (t : Fin cfg0.N) (h0 : ¬t.val % 25 = 0) (h1 : t.val % 25 = 24) :
    outsAt V c t.val t.isLt = atC V c t h0 h1 (outsAt V c (t.val - 1) (Nat.lt_of_le_of_lt (Nat.sub_le _ _) t.isLt)).2.2.1 (outsAt V c (t.val - 1) (Nat.lt_of_le_of_lt (Nat.sub_le _ _) t.isLt)).2.2.2 := by
  obtain ⟨_ | n, hn⟩ := t
  · exact absurd (Nat.zero_mod _) h0
  · exact (dif_neg h0).trans ((dif_pos h1).trans rfl)

/-- The invariant after a point: the two accumulators hold `q`'s last two entries. -/
def PhiAt (q : Quad F) : sProp 𝕄 :=
  iprop(owns (c : Thread nD τ) accM fullShare q.2.2.1 ∗ owns (c : Thread nD τ) cntM fullShare q.2.2.2 ∗ restBut (F := F) c ∗ ∃ r, prngReg c r)

def PhiS : (n : ℕ) → n ≤ cfg0.N → sProp 𝕄
  | 0, _ => Pipeline.ΦA spec0 c
  | n + 1, hn => PhiAt c (outsAt V c n hn)

theorem PhiS_pos (n : ℕ) (h : n ≤ cfg0.N) (hz : n ≠ 0) : PhiS V c n h = PhiAt c (outsAt V c (n - 1) (by omega)) := by
  cases n with
  | zero => exact absurd rfl hz
  | succ n => rfl

/-- Forgetting the accumulators' contents gives the entry form back. -/
theorem PhiS_weak : ∀ (n : ℕ) (h : n ≤ cfg0.N), PhiS V c n h ⊢ Pipeline.ΦA spec0 c
  | 0, _ => Entails.refl _
  | n + 1, _ => by
    rw [PhiA_eq]; unfold PhiS PhiAt
    iintro ⟨HS0, HS1, Hr, Hg⟩
    iframe Hr Hg
    isplitl [HS0]; · iexists _; iexact HS0
    iexists _; iexact HS1

def dat : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (outsAt V c t.val t.isLt).1
    | ⟨3, _⟩ => (outsAt V c t.val t.isLt).2.1
  Φ t := PhiS V c t.val (Nat.le_of_lt_succ t.isLt)
  q _ := fullShare
  owed _ := 0

theorem A_eq (w : Fin cfg0.W) : (dat V c).A w = V c (Pipeline.arrRef spec0 w) := by dsimp only [dat]

theorem after_0 (t : Fin cfg0.N) : (dat V c).after 0 t = iblk V c 0 t := by dsimp only [dat]
theorem after_1 (t : Fin cfg0.N) : (dat V c).after 1 t = iblk V c 1 t := by dsimp only [dat]
theorem after_2 (t : Fin cfg0.N) : (dat V c).after 2 t = (outsAt V c t.val t.isLt).1 := by dsimp only [dat]
theorem after_3 (t : Fin cfg0.N) : (dat V c).after 3 t = (outsAt V c t.val t.isLt).2.1 := by dsimp only [dat]

theorem before_0 (t : Fin cfg0.N) (d) : (dat V c).before 0 t d = iblk V c 0 t := (dat V c).before_fetched 0 t (fetch0_0 t) d
theorem before_1 (t : Fin cfg0.N) (d) : (dat V c).before 1 t d = iblk V c 1 t := (dat V c).before_fetched 1 t (fetch0_1 t) d

theorem leaves_live (w : Fin cfg0.W) (t : Fin cfg0.N) (h : cfg0.idle w (grid0.coords t) = false) :
    (dat V c).leavesExact w t = owns (c : Thread nD τ) ((cfg0.win w).stage (cfg0.slots t w)) fullShare ((dat V c).after w t) := by
  unfold Dat.leavesExact; rw [h]

set_option maxHeartbeats 4800000 in
/-- The body at any point: the invariant lends the accumulators and takes them back at the point's contents, which the found pieces cover. -/
theorem sound_body (t : Fin cfg0.N) :
    iprop(PhiS V c t.val (Nat.le_of_lt t.isLt) ∗ (dat V c).owesAt () t.castSucc
      ∗ (∃ d, owns (c : Thread nD τ) (ms0 t) fullShare ((dat V c).before 0 t d))
      ∗ (∃ d, owns (c : Thread nD τ) (ms1 t) fullShare ((dat V c).before 1 t d))
      ∗ (∃ d, owns (c : Thread nD τ) (ms2 t) fullShare ((dat V c).before 2 t d))
      ∗ (∃ d, owns (c : Thread nD τ) (ms3 t) fullShare ((dat V c).before 3 t d)))
    ⊢ wp frame (wpE (defs₀ (F := F)) Variants.none c none) Set.univ (bodyAt0 t) fun _ =>
      iprop(PhiAt c (outsAt V c t.val t.isLt) ∗ (dat V c).owesAt () t.castSucc
        ∗ (dat V c).leavesExact 0 t ∗ (dat V c).leavesExact 1 t ∗ (dat V c).leavesExact 2 t ∗ (dat V c).leavesExact 3 t) := by
  unfold bodyAt0
  simp only [before_0, before_1]
  rw [leaves_live V c 0 t rfl, leaves_live V c 1 t rfl, after_0, after_1]
  by_cases h1 : t.val % 25 = 24
  · have h0 : ¬t.val % 25 = 0 := by omega
    have hl := (hcondLast t).mpr h1
    rw [leaves_live V c 2 t (live2 t hl), leaves_live V c 3 t (live3 t hl), after_2, after_3]
    rw [outsAt_C V c t h0 h1, PhiS_pos V c t.val _ (by omega)]
    unfold atC PhiAt out2_C out3_C acc_C cnt_C; (try dsimp only)
    iintro ⟨⟨HS0, HS1, Hr, Hg⟩, Ho, ⟨%d0, H0⟩, ⟨%d1, H1⟩, ⟨%d2, H2⟩, ⟨%d3, H3⟩⟩
    iapply ((kernelRun_C c (grid0.coords t) _ _ _ _ _ _ _ _ _ _ _ _ (fun h => h0 ((hcondFirst t).mp h)) hl (iblk V c 0 t) (iblk V c 1 t) _ _).2.2.2.2 Set.univ _)
    iframe H0 H1 HS0 HS1
    isplitl [H2]; · iexists _; iexact H2
    isplitl [H3]; · iexists _; iexact H3
    iintro ⟨H0, H1, H2, H3, HS0, HS1⟩
    icases (owns_writes c VO2 (cover_C_out2 c _ _ _ _ _ _ _ _ _ _ _ _ _ _ _ _ _ _ _)) $$ H2 with H2
    icases (owns_writes c VO3 (cover_C_out3 c _ _ _ _ _ _ _ _ _ _ _ _ _ _ _ _ _ _ _)) $$ H3 with H3
    icases (owns_writes c VAcc (cover_C_acc c _ _ _ _ _ _ _ _ _ _ _ _ _ _ _ _ _ _ _)) $$ HS0 with HS0
    icases (owns_writes c VCnt (cover_C_cnt c _ _ _ _ _ _ _ _ _ _ _ _ _ _ _ _ _ _ _)) $$ HS1 with HS1
    iframe
  have hl : ¬condLast (grid0.coords t) := fun h => h1 ((hcondLast t).mp h)
  rw [Dat.leavesExact_idle (dat V c) 2 t (idle2 t hl) (noFlush2 t hl), Dat.leavesExact_idle (dat V c) 3 t (idle3 t hl) (noFlush3 t hl)]
  by_cases h0 : t.val % 25 = 0
  · have hw := PhiS_weak V c t.val (Nat.le_of_lt t.isLt)
    rw [PhiA_eq] at hw
    rw [outsAt_A V c t h0 h1]
    unfold atA PhiAt acc_A cnt_A; (try dsimp only)
    iintro ⟨HP, Ho, ⟨%d0, H0⟩, ⟨%d1, H1⟩, ⟨%d2, H2⟩, ⟨%d3, H3⟩⟩
    icases (hw) $$ HP with ⟨⟨⟨HS0, HS1⟩, Hr⟩, Hg⟩
    iapply ((kernelRun_A c (grid0.coords t) _ _ _ _ _ _ _ _ _ _ _ _ ((hcondFirst t).mpr h0) hl (iblk V c 0 t) (iblk V c 1 t)).2.2.2.2 _ _ Set.univ _)
    iframe H0 H1 H2 H3 HS0 HS1
    iintro ⟨H0, H1, H2, H3, HS0, HS1⟩
    icases (owns_writes c VAcc (cover_A_acc c _ _ _ _ _ _ _ _ _ _ _ _ _ _ _ _ _)) $$ HS0 with HS0
    icases (owns_writes c VCnt (cover_A_cnt c _ _ _ _ _ _ _ _ _ _ _ _ _ _ _ _ _)) $$ HS1 with HS1
    iframe HS0 HS1 Hr Hg Ho H0 H1
    isplitl [H2]; · iexists _; iexact H2
    iexists _; iexact H3
  · rw [outsAt_B V c t h0 h1, PhiS_pos V c t.val _ (by omega)]
    unfold atB PhiAt acc_B cnt_B; (try dsimp only)
    iintro ⟨⟨HS0, HS1, Hr, Hg⟩, Ho, ⟨%d0, H0⟩, ⟨%d1, H1⟩, ⟨%d2, H2⟩, ⟨%d3, H3⟩⟩
    iapply ((kernelRun_B c (grid0.coords t) _ _ _ _ _ _ _ _ _ _ _ _ (fun h => h0 ((hcondFirst t).mp h)) hl (iblk V c 0 t) (iblk V c 1 t) _ _).2.2.2.2 _ _ Set.univ _)
    iframe H0 H1 H2 H3 HS0 HS1
    iintro ⟨H0, H1, H2, H3, HS0, HS1⟩
    icases (owns_writes c VAcc (cover_B_acc c _ _ _ _ _ _ _ _ _ _ _ _ _ _ _ _ _ _ _)) $$ HS0 with HS0
    icases (owns_writes c VCnt (cover_B_cnt c _ _ _ _ _ _ _ _ _ _ _ _ _ _ _ _ _ _ _)) $$ HS1 with HS1
    iframe HS0 HS1 Hr Hg Ho H0 H1
    isplitl [H2]; · iexists _; iexact H2
    iexists _; iexact H3

theorem body_obligation : BodyObligation (dat (F := F) V c) (defs₀ (F := F)) Variants.none () Set.univ := fun t => by
  rw [bigSep_W0, bigSep_W0]
  exact sound_body V c t

theorem hin : Pipeline.ΦA spec0 c ⊢ (dat V c).Φ 0 := Entails.refl _

theorem hout : (dat V c).Φ (Fin.last cfg0.N) ⊢ Pipeline.ΦA spec0 c := PhiS_weak V c cfg0.N (Nat.le_refl _)

end Cert.Kernel.Pool

end
-- ==== Proof.BitsBlocks.lean ====
import proofs.«419202_j25975962206499_3_alg».proof.Proof.Gen.Kernel.Skeleton

noncomputable section

namespace Cert.Kernel.Hand

open Idealize.ShloMosaic Cert.Kernel Cert.Kernel.Gen

variable {F : FTy → Type} [FloatOps F]

-- What one grid point of each region computes, as one pure function of the blocks it is handed.
def poolAcc (b : Vec F S2000x1 .i32) (x : Vec F S2000x512 .f32) (acc : Vec F S128x512 .f32) : Vec F S128x512 .f32 :=
  k0_pay4 b x acc

def poolCnt (b : Vec F S2000x1 .i32) (cnt : Vec F S1x128 .f32) : Vec F S1x128 .f32 :=
  k0_pay5 b cnt

def poolAcc0 (b : Vec F S2000x1 .i32) (x : Vec F S2000x512 .f32) : Vec F S128x512 .f32 :=
  poolAcc b x (k0_pay1 (F := F))
def poolCnt0 (b : Vec F S2000x1 .i32) : Vec F S1x128 .f32 :=
  poolCnt b (k0_pay2 (F := F))

def poolOutSum (acc : Vec F S128x512 .f32) : Vec F S1x128x512 .f32 := k0_pay6 acc
def poolOutCnt (cnt : Vec F S1x128 .f32) : Vec F S1x1x128 .f32 := k0_pay7 cnt

def vnBlock (nm vn : Vec F S128x512 .f32) (w1a w1b : Vec F S512x512 .f32) (b1 : Vec F S1x512 .f32)
    (w2 : Vec F S512x512 .f32) (b2 g be : Vec F S1x512 .f32) : Vec F S128x512 .f32 :=
  k1_pay1 (k1_pay2 nm vn w1a w1b b1 w2 b2) (k1_pay3 nm vn w1a w1b b1 w2 b2) (k1_pay4 nm vn w1a w1b b1 w2 b2)
    (Scalar.ofBits .f32 0x44000000#32) g be

def nodeBlock (x : Vec F S1000x512 .f32) (b : Vec F S1000x1 .i32) (vnn : Vec F S128x512 .f32)
    (w3a w3b : Vec F S512x512 .f32) (b3 : Vec F S1x512 .f32) (w4 : Vec F S512x512 .f32) (b4 g be : Vec F S1x512 .f32) :
    Vec F S1000x512 .f32 :=
  k2_pay1 (k2_pay2 x b vnn w3a w3b b3 w4 b4) g be

end Cert.Kernel.Hand

end
-- ==== Proof.BitsVnBody.lean ====
import proofs.«419202_j25975962206499_3_alg».proof.Proof.Gen.Kernel.Launch
import proofs.«419202_j25975962206499_3_alg».proof.Proof.Gen.Kernel.Skeleton
import proofs.«419202_j25975962206499_3_alg».proof.Proof.Gen.Kernel.Points
import proofs.«419202_j25975962206499_3_alg».proof.Proof.BitsBlocks
import Idealize.ShloMosaic.Lib.Pipeline.RegionsLoop
import Idealize.ShloMosaic.Lib.Pipeline.FrameSuffix
import Idealize.ShloMosaic.Lib.Pipeline.Value
import Idealize.ShloMosaic.Lib.Ring

set_option maxRecDepth 16384

noncomputable section

namespace Cert.Kernel.Vn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rA : Rect S128x512 := Rect.unit (s := S128x512) ![0, 0] S128x512.size inb_S128x512_S128x512_0_0
abbrev rB : Rect S512x512 := Rect.unit (s := S512x512) ![0, 0] S512x512.size inb_S512x512_S512x512_0_0
abbrev rC : Rect S1x512 := Rect.unit (s := S1x512) ![0, 0] S1x512.size inb_S1x512_S1x512_0_0

theorem zero2 : (![0, 0] : Fin 2 → ℕ) = fun _ => 0 := by funext a; fin_cases a <;> rfl

section
variable (x0 x1 : Vec F S128x512 .f32) (x2 x3 : Vec F S512x512 .f32) (x4 : Vec F S1x512 .f32) (x5 : Vec F S512x512 .f32) (x6 x7 x8 : Vec F S1x512 .f32)

def out : Vec F S128x512 .f32 :=
  View.canon [⟨rA, k1_pay1 (k1_pay2 (View.ld x0 rA) (View.ld x1 rA) (View.ld x2 rB) (View.ld x3 rB) (View.ld x4 rC) (View.ld x5 rB) (View.ld x6 rC)) (k1_pay3 (View.ld x0 rA) (View.ld x1 rA) (View.ld x2 rB) (View.ld x3 rB) (View.ld x4 rC) (View.ld x5 rB) (View.ld x6 rC)) (k1_pay4 (View.ld x0 rA) (View.ld x1 rA) (View.ld x2 rB) (View.ld x3 rB) (View.ld x4 rC) (View.ld x5 rB) (View.ld x6 rC))
    (Scalar.ofBits .f32 0x44000000#32) (View.ld x7 rC) (View.ld x8 rC)⟩]

theorem out_eq : out x0 x1 x2 x3 x4 x5 x6 x7 x8 = Hand.vnBlock x0 x1 x2 x3 x4 x5 x6 x7 x8 := by
  unfold out Hand.vnBlock
  rw [View.canon_unit_zero zero2]
  simp only [View.ld_unit_zero (S := S128x512) zero2, View.ld_unit_zero (S := S512x512) zero2,
    View.ld_unit_zero (S := S1x512) zero2]

theorem cover (p0 : Vec F S128x512 .f32) (y : S128x512.Idx) :
    ∃ pc ∈ ([⟨rA, p0⟩] : List (View.Piece (Elt F) S128x512 .f32)), y ∈ pc.1.set :=
  View.cover_of_tiled [⟨rA, p0⟩] S128x512.size (by rfl) y

set_option maxHeartbeats 4000000 in
/-- The body reads the inputs whole, keeps them, and stores `out` of them over the whole output. -/
theorem sound_kernel {c : Dev nD} {E : Set ℕ} {i : grid1.Coords} {arg0 arg1 arg9 : Memref sig .tc .vmem S128x512 .f32} {arg2 arg3 arg5 : Memref sig .tc .vmem S512x512 .f32} {arg4 arg6 arg7 arg8 : Memref sig .tc .vmem S1x512 .f32} {harg0 : arg0.IsWhole} {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} (K : PUnit → sProp 𝕄) :
    iprop(owns c.tc arg0 fullShare x0 ∗ owns c.tc arg1 fullShare x1 ∗ owns c.tc arg2 fullShare x2 ∗ owns c.tc arg3 fullShare x3 ∗ owns c.tc arg4 fullShare x4 ∗ owns c.tc arg5 fullShare x5 ∗ owns c.tc arg6 fullShare x6 ∗ owns c.tc arg7 fullShare x7 ∗ owns c.tc arg8 fullShare x8 ∗ (∃ d, owns c.tc arg9 fullShare d)
        ∗ (iprop(owns c.tc arg0 fullShare x0 ∗ owns c.tc arg1 fullShare x1 ∗ owns c.tc arg2 fullShare x2 ∗ owns c.tc arg3 fullShare x3 ∗ owns c.tc arg4 fullShare x4 ∗ owns c.tc arg5 fullShare x5 ∗ owns c.tc arg6 fullShare x6 ∗ owns c.tc arg7 fullShare x7 ∗ owns c.tc arg8 fullShare x8 ∗ owns c.tc arg9 fullShare (out x0 x1 x2 x3 x4 x5 x6 x7 x8)) -∗ K ⟨⟩))
      ⊢ wp frame (wpE (defs₀ (F := F)) Variants.none c none) E (cc1__vn_kernel i arg0 harg0 arg1 harg1 arg2 harg2 arg3 harg3 arg4 harg4 arg5 harg5 arg6 harg6 arg7 harg7 arg8 harg8 arg9 harg9) K := by
  simp only [cc1__vn_kernel_eq_skeleton]; unfold cc1__vn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst_vars
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  isplitl [H5]; · iexists f5; iframe H5; ipureintro; rfl
  isplitl [H6]; · iexists f6; iframe H6; ipureintro; rfl
  isplitl [H7]; · iexists f7; iframe H7; ipureintro; rfl
  isplitl [H8]; · iexists f8; iframe H8; ipureintro; rfl
  iexists _; iframe H9; ipureintro
  exact View.read_writes_eq_canon _ _ _ (cover _)

end

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => out (iblk V c 0 t) (iblk V c 1 t) (iblk V c 2 t) (iblk V c 3 t) (iblk V c 4 t) (iblk V c 5 t) (iblk V c 6 t) (iblk V c 7 t) (iblk V c 8 t)
  Φ _ := Pipeline.ΦA spec1 c
  q _ := fullShare
  owed _ := 0

theorem A_eq (c : Dev nD) (w : Fin cfg1.W) : (dat V c).A w = V c (Pipeline.arrRef spec1 w) := by
  dsimp only [dat]

theorem after_out (c : Dev nD) (t : Fin cfg1.N) : (dat V c).after 9 t = out (iblk V c 0 t) (iblk V c 1 t) (iblk V c 2 t) (iblk V c 3 t) (iblk V c 4 t) (iblk V c 5 t) (iblk V c 6 t) (iblk V c 7 t) (iblk V c 8 t) := by dsimp only [dat]

/-- The body leaves every input block in place, so what it finds at a point is what it leaves there. -/
theorem before_in (c : Dev nD) (t : Fin cfg1.N) (w : Fin cfg1.W) (hw : w ≠ 9) (d) : (dat V c).before w t d = (dat V c).after w t := by
  fin_cases w <;> first
    | exact absurd rfl hw
    | exact (dat V c).before_in_eq_fetched _ rfl (fun _ => rfl) (fun _ _ _ => rfl) (fun _ => rfl) t d

/-- The body's triple at the input blocks; the invariant passes through unread. -/
theorem body_obligation (c : Dev nD) : BodyObligation (dat (F := F) V c) (defs₀ (F := F)) Variants.none () Set.univ := fun t => by
  rw [bigSep_W1, bigSep_W1]
  simp (disch := decide) only [before_in V c t]
  dsimp only [dat]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel (iblk V c 0 t) (iblk V c 1 t) (iblk V c 2 t) (iblk V c 3 t) (iblk V c 4 t) (iblk V c 5 t) (iblk V c 6 t) (iblk V c 7 t) (iblk V c 8 t) _)
  iframe H0 H1 H2 H3 H4 H5 H6 H7 H8
  isplitl [H9]; · iexists _; iexact H9
  iintro H
  iframe
  iexact Ho

end Cert.Kernel.Vn

end
-- ==== Proof.BitsNodeBody.lean ====
import proofs.«419202_j25975962206499_3_alg».proof.Proof.Gen.Kernel.Launch
import proofs.«419202_j25975962206499_3_alg».proof.Proof.Gen.Kernel.Skeleton
import proofs.«419202_j25975962206499_3_alg».proof.Proof.Gen.Kernel.Points
import proofs.«419202_j25975962206499_3_alg».proof.Proof.BitsBlocks
import Idealize.ShloMosaic.Lib.Pipeline.RegionsLoop
import Idealize.ShloMosaic.Lib.Pipeline.FrameSuffix
import Idealize.ShloMosaic.Lib.Pipeline.Value
import Idealize.ShloMosaic.Lib.Ring

set_option maxRecDepth 16384

noncomputable section

namespace Cert.Kernel.Node

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rX : Rect S1000x512 := Rect.unit (s := S1000x512) ![0, 0] S1000x512.size inb_S1000x512_S1000x512_0_0
abbrev rB : Rect S1000x1 := Rect.unit (s := S1000x1) ![0, 0] S1000x1.size inb_S1000x1_S1000x1_0_0
abbrev rV : Rect S128x512 := Rect.unit (s := S128x512) ![0, 0] S128x512.size inb_S128x512_S128x512_0_0
abbrev rW : Rect S512x512 := Rect.unit (s := S512x512) ![0, 0] S512x512.size inb_S512x512_S512x512_0_0
abbrev rR : Rect S1x512 := Rect.unit (s := S1x512) ![0, 0] S1x512.size inb_S1x512_S1x512_0_0

theorem hz : (![0, 0] : Fin 2 → ℕ) = fun _ => 0 := by funext a; fin_cases a <;> rfl

section
variable (x0 : Vec F S1000x512 .f32) (x1 : Vec F S1000x1 .i32) (x2 : Vec F S128x512 .f32) (x3 x4 : Vec F S512x512 .f32) (x5 : Vec F S1x512 .f32) (x6 : Vec F S512x512 .f32) (x7 x8 x9 : Vec F S1x512 .f32)

def out : Vec F S1000x512 .f32 :=
  View.canon [⟨rX, k2_pay1 (k2_pay2 (View.ld x0 rX) (View.ld x1 rB) (View.ld x2 rV) (View.ld x3 rW) (View.ld x4 rW) (View.ld x5 rR) (View.ld x6 rW) (View.ld x7 rR)) (View.ld x8 rR) (View.ld x9 rR)⟩]

theorem out_eq : out x0 x1 x2 x3 x4 x5 x6 x7 x8 x9 = Hand.nodeBlock x0 x1 x2 x3 x4 x5 x6 x7 x8 x9 := by
  show _ = k2_pay1 (k2_pay2 x0 x1 x2 x3 x4 x5 x6 x7) x8 x9
  unfold out
  rw [View.canon_unit_zero (S := S1000x512) hz]
  simp only [View.ld_unit_zero (S := S1000x512) hz, View.ld_unit_zero (S := S1000x1) hz, View.ld_unit_zero (S := S128x512) hz,
    View.ld_unit_zero (S := S512x512) hz, View.ld_unit_zero (S := S1x512) hz]

theorem cover (p0 : Vec F S1000x512 .f32) (y : S1000x512.Idx) :
    ∃ pc ∈ ([⟨rX, p0⟩] : List (View.Piece (Elt F) S1000x512 .f32)), y ∈ pc.1.set :=
  ⟨_, List.mem_singleton_self _, View.mem_set_unit_zero (S := S1000x512) hz inb_S1000x512_S1000x512_0_0 y⟩

set_option maxHeartbeats 4000000 in
/-- The body reads the inputs whole, keeps them, and stores `out` of them over the whole output. -/
theorem sound_kernel {c : Dev nD} {E : Set ℕ} {i : grid2.Coords} {arg0 arg10 : Memref sig .tc .vmem S1000x512 .f32} {arg1 : Memref sig .tc .vmem S1000x1 .i32} {arg2 : Memref sig .tc .vmem S128x512 .f32} {arg3 arg4 arg6 : Memref sig .tc .vmem S512x512 .f32} {arg5 arg7 arg8 arg9 : Memref sig .tc .vmem S1x512 .f32} {harg0 : arg0.IsWhole} {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} (K : PUnit → sProp 𝕄) :
    iprop(owns c.tc arg0 fullShare x0 ∗ owns c.tc arg1 fullShare x1 ∗ owns c.tc arg2 fullShare x2 ∗ owns c.tc arg3 fullShare x3 ∗ owns c.tc arg4 fullShare x4 ∗ owns c.tc arg5 fullShare x5 ∗ owns c.tc arg6 fullShare x6 ∗ owns c.tc arg7 fullShare x7 ∗ owns c.tc arg8 fullShare x8 ∗ owns c.tc arg9 fullShare x9 ∗ (∃ d, owns c.tc arg10 fullShare d)
        ∗ (iprop(owns c.tc arg0 fullShare x0 ∗ owns c.tc arg1 fullShare x1 ∗ owns c.tc arg2 fullShare x2 ∗ owns c.tc arg3 fullShare x3 ∗ owns c.tc arg4 fullShare x4 ∗ owns c.tc arg5 fullShare x5 ∗ owns c.tc arg6 fullShare x6 ∗ owns c.tc arg7 fullShare x7 ∗ owns c.tc arg8 fullShare x8 ∗ owns c.tc arg9 fullShare x9 ∗ owns c.tc arg10 fullShare (out x0 x1 x2 x3 x4 x5 x6 x7 x8 x9)) -∗ K ⟨⟩))
      ⊢ wp frame (wpE (defs₀ (F := F)) Variants.none c none) E (cc2__node_kernel i arg0 harg0 arg1 harg1 arg2 harg2 arg3 harg3 arg4 harg4 arg5 harg5 arg6 harg6 arg7 harg7 arg8 harg8 arg9 harg9 arg10 harg10) K := by
  simp only [cc2__node_kernel_eq_skeleton]; unfold cc2__node_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst_vars
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  isplitl [H5]; · iexists f5; iframe H5; ipureintro; rfl
  isplitl [H6]; · iexists f6; iframe H6; ipureintro; rfl
  isplitl [H7]; · iexists f7; iframe H7; ipureintro; rfl
  isplitl [H8]; · iexists f8; iframe H8; ipureintro; rfl
  isplitl [H9]; · iexists f9; iframe H9; ipureintro; rfl
  iexists _; iframe H10; ipureintro
  exact View.read_writes_eq_canon _ _ _ (cover _)

end

def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => out (iblk V c 0 t) (iblk V c 1 t) (iblk V c 2 t) (iblk V c 3 t) (iblk V c 4 t) (iblk V c 5 t) (iblk V c 6 t) (iblk V c 7 t) (iblk V c 8 t) (iblk V c 9 t)
  Φ _ := Pipeline.ΦA spec2 c
  q _ := fullShare
  owed _ := 0

theorem A_eq (c : Dev nD) (w : Fin cfg2.W) : (dat V c).A w = V c (Pipeline.arrRef spec2 w) := by
  dsimp only [dat]

theorem after_out (c : Dev nD) (t : Fin cfg2.N) : (dat V c).after 10 t = out (iblk V c 0 t) (iblk V c 1 t) (iblk V c 2 t) (iblk V c 3 t) (iblk V c 4 t) (iblk V c 5 t) (iblk V c 6 t) (iblk V c 7 t) (iblk V c 8 t) (iblk V c 9 t) := by dsimp only [dat]

/-- The body leaves every input block in place, so what it finds at a point is what it leaves there. -/
theorem before_in (c : Dev nD) (t : Fin cfg2.N) (w : Fin cfg2.W) (hw : w ≠ 10) (d) : (dat V c).before w t d = (dat V c).after w t := by
  fin_cases w <;> first
    | exact absurd rfl hw
    | exact (dat V c).before_in_eq_fetched _ rfl (fun _ => rfl) (fun _ _ _ => rfl) (fun _ => rfl) t d

/-- The body's triple at the input blocks; the invariant passes through unread. -/
theorem body_obligation (c : Dev nD) : BodyObligation (dat (F := F) V c) (defs₀ (F := F)) Variants.none () Set.univ := fun t => by
  rw [bigSep_W2, bigSep_W2]
  simp (disch := decide) only [before_in V c t]
  dsimp only [dat]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel (iblk V c 0 t) (iblk V c 1 t) (iblk V c 2 t) (iblk V c 3 t) (iblk V c 4 t) (iblk V c 5 t) (iblk V c 6 t) (iblk V c 7 t) (iblk V c 8 t) (iblk V c 9 t) _)
  iframe H0 H1 H2 H3 H4 H5 H6 H7 H8 H9
  isplitl [H10]; · iexists _; iexact H10
  iintro H
  iframe
  iexact Ho

end Cert.Kernel.Node

end
-- ==== Proof.BitsLaunch.lean ====
import proofs.«419202_j25975962206499_3_alg».proof.Proof.Gen.Kernel.Regions
import proofs.«419202_j25975962206499_3_alg».proof.Proof.BitsPoolData
import proofs.«419202_j25975962206499_3_alg».proof.Proof.BitsVnBody
import proofs.«419202_j25975962206499_3_alg».proof.Proof.BitsNodeBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

abbrev E1 (c : Dev nD) (b : Ref sig .tc) : Buf (Elt F) ((c : Thread nD τ).loc b) := Gen.V1 m c b

def W2 (c : Dev nD) : Valuation τ sig (Elt F) :=
  Pipeline.withArrays spec0 c (Gen.V1 m c) fun w => (Pool.dat (E1 m) c).arrAt w cfg0.N
theorem W2_arr (c : Dev nD) (w : Fin cfg0.W) :
    W2 m c (Proc.devRef .tc (Pipeline.arrRef spec0 w)) = (Pool.dat (E1 m) c).arrAt w cfg0.N :=
  Pipeline.withArrays_arr spec0 launch0.win.arr_inj c _ _ w

def outsA : Gen.Outs (F := F) := fun _ r c => W2 m c r
abbrev E3 (c : Dev nD) (b : Ref sig .tc) : Buf (Elt F) ((c : Thread nD τ).loc b) := Gen.V3 m (outsA m) c b

def W4 (c : Dev nD) : Valuation τ sig (Elt F) :=
  Pipeline.withArrays spec1 c (Gen.V3 m (outsA m) c) fun w => (Vn.dat (E3 m) c).arrAt w cfg1.N
theorem W4_arr (c : Dev nD) (w : Fin cfg1.W) :
    W4 m c (Proc.devRef .tc (Pipeline.arrRef spec1 w)) = (Vn.dat (E3 m) c).arrAt w cfg1.N :=
  Pipeline.withArrays_arr spec1 launch1.win.arr_inj c _ _ w

def outsB : Gen.Outs (F := F) := fun J r c => if J = 2 then W2 m c r else W4 m c r
abbrev E5 (c : Dev nD) (b : Ref sig .tc) : Buf (Elt F) ((c : Thread nD τ).loc b) := Gen.V5 m (outsB m) c b

def W6 (c : Dev nD) : Valuation τ sig (Elt F) :=
  Pipeline.withArrays spec2 c (Gen.V5 m (outsB m) c) fun w => (Node.dat (E5 m) c).arrAt w cfg2.N
theorem W6_arr (c : Dev nD) (w : Fin cfg2.W) :
    W6 m c (Proc.devRef .tc (Pipeline.arrRef spec2 w)) = (Node.dat (E5 m) c).arrAt w cfg2.N :=
  Pipeline.withArrays_arr spec2 launch2.win.arr_inj c _ _ w

def outs : Gen.Outs (F := F) := fun J r c => if J = 2 then W2 m c r else if J = 4 then W4 m c r else W6 m c r

theorem E2_v1_0 (c : Dev nD) : Gen.V2 m (outs m) c main_v1_0 = W2 m c main_v1_0 :=
  (Function.update_of_ne (StableHlo.devRef_ne_of_ne (by decide)) ..).trans (Function.update_self ..)
theorem E2_v1_1 (c : Dev nD) : Gen.V2 m (outs m) c main_v1_1 = W2 m c main_v1_1 := Function.update_self ..
theorem E4_v25 (c : Dev nD) : Gen.V4 m (outs m) c main_v25 = W4 m c main_v25 := Function.update_self ..
theorem E6_v30 (c : Dev nD) : Gen.V6 m (outs m) c main_v30 = W6 m c main_v30 := Function.update_self ..

def pdats : (p : Fin 3) → (c : Dev nD) → Dat τ (Elt F) Unit ℕ (UR sig nD τ) ℕ (cfgs p) c
  | ⟨0, _⟩ => fun c => Pool.dat (E1 m) c
  | ⟨1, _⟩ => fun c => Vn.dat (E3 m) c
  | ⟨2, _⟩ => fun c => Node.dat (E5 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

theorem owesAt_intro {cfg : Cfg sig Λ₀} {c : Dev nD} (d : Dat τ (Elt F) Unit ℕ (UR sig nD τ) ℕ cfg c) (t : Fin (cfg.N + 1))
    (h0 : d.owed t = 0) (hr : d.recorded t = Set.univ) :
    iprop(∃ W, owes (c : Thread nD τ) (0 : CellTallies nD τ sig Unit) W) ⊢ (d.owesAt () t : sProp 𝕄) := by
  unfold Pipeline.Dat.owesAt Pipeline.owesWithin Pipeline.Dat.bound; rw [h0, hr]
  iintro ⟨%W, HO⟩; iexists W; isplitr; · ipureintro; exact fun _ _ => Or.inl trivial
  iexact HO
theorem owesAt_elim {cfg : Cfg sig Λ₀} {c : Dev nD} (d : Dat τ (Elt F) Unit ℕ (UR sig nD τ) ℕ cfg c) (t : Fin (cfg.N + 1))
    (h0 : d.owed t = 0) : (d.owesAt () t : sProp 𝕄) ⊢ iprop(∃ W, owes (c : Thread nD τ) (0 : CellTallies nD τ sig Unit) W) := by
  unfold Pipeline.Dat.owesAt Pipeline.owesWithin; rw [h0]
  iintro ⟨%W, -, HO⟩; iexists W; iexact HO

abbrev rd (V : Valuation τ sig (Elt F)) (c : Dev nD) (b : Ref sig .tc) : Buf (Elt F) ((c : Thread nD τ).loc b) := V b

set_option backward.isDefEq.respectTransparency.types false in
/-- One region as a segment between the contents V and V': an input array ends as entered, an output array as `hout` names it. -/
def reg {p : Fin 3} (lf : Pipeline.LaunchFacts (nD := nD) (τ := τ) cfgs p) (V V' : Dev nD → Valuation τ sig (Elt F))
    (hb : ∀ c, Pipeline.BodyObligationLoose (pdats m p c) defs₀ 𝒱₀ () Set.univ)
    (h0 : ∀ c t, (pdats m p c).owed t = 0) (hr : ∀ c, (pdats m p c).recorded 0 = Set.univ)
    (hq : ∀ c w, (pdats m p c).q w = fullShare)
    (hA : ∀ c w, (pdats m p c).A w = rd (V c) c (Pipeline.arrRef (cfgs p).spec w))
    (hΦ : ∀ c, (Pipeline.ΦA (cfgs p).spec c : sProp 𝕄) ⊢ (pdats m p c).Φ 0)
    (hΨ : ∀ c, (pdats m p c).Φ (Fin.last _) ⊢ (Pipeline.ΦA (cfgs p).spec c : sProp 𝕄))
    {O : List (Ref sig .tc)} (hof : ∀ c r, r ∉ O → rd (V' c) c r = rd (V c) c r)
    (hO : ∀ r ∈ O, r ∈ Finset.univ.image (Pipeline.arrRef (cfgs p).spec))
    (hio : ∀ w, ((cfgs p).win w).isOut = false → Pipeline.arrRef (cfgs p).spec w ∉ O)
    (hout : ∀ c w, ((cfgs p).win w).isOut = true → (pdats m p c).arrAt w (cfgs p).N = rd (V' c) c (Pipeline.arrRef (cfgs p).spec w)) :
    Pipeline.RegionSeg (pcfgs (F := F)) Gen.adm (pdats m) () defs₀ 𝒱₀ L lv p where
  win := lf.win.to₀
  block_pos := lf.block_pos
  stage_whole := lf.stage_whole
  K := PEmpty
  osem k := k.elim
  ho := Pipeline.OwnSemFacts.none _
  hbody := hb
  hwaits := Pipeline.hwaits_of_owed_zero _ _ _ _ L lv p h0
  pre c := iprop(StableHlo.held (c : Thread nD τ) (Pipeline.ucRefs τ sig) (V c) ∗ R c)
  post c := iprop(StableHlo.held (c : Thread nD τ) (Pipeline.ucRefs τ sig) (V' c) ∗ R c)
  X c := iprop(∃ r, prngReg c r)
  Y c := iprop(∃ r, prngReg c r)
  Z c := Pipeline.unscopedRest (cfgs p).spec c (rd (V c) c)
  hentry c := by
    rw [Pipeline.ownSems0_none]
    have hsplit := Pipeline.arrays_of_unscopedBufs (p := p) (pcfgs (F := F)) Gen.adm (pdats m) lf.win lf.arr_whole c
      ((pdats m p c).share_full (hq c)) (rd (V c) c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owesAt_intro (pdats m p c) 0 (h0 c 0) (hr c)); iexact HO
    isplitl [Hp]; · iexact Hp
    iexact Hrest
  hin c := by
    refine BIBase.Entails.trans ?_ (hΦ c)
    unfold Pipeline.ΦA
    iintro ⟨Hp, -, Hr⟩
    isplitl [Hr]; · iexact Hr
    iexact Hp
  hout c := by
    rw [Pipeline.ownSems0_none]
    refine BIBase.Entails.trans (hΨ c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) Gen.adm lf.win lf.arr_whole c (pdats m) ((pdats m p c).share_full (hq c))
      (rd (V c) c) (rd (V' c) c) ((pdats m p c).arrAt · (cfgs p).N)
      (fun w => by
        cases hw : ((cfgs p).win w).isOut
        · exact (((pdats m p c).arrAt_in w hw _).trans (hA c w)).trans (hof c _ (hio w hw)).symm
        · exact hout c w hw)
      fun b hb => hof c b fun h => hb (hO b h)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_elim (pdats m p c) _ (h0 c _)); iexact HO

def reg0 := reg m launch0 (Gen.V1 m) (Gen.V2 m (outs m)) (fun c => (Pool.body_obligation (E1 m) c).loose)
  (fun _ _ => rfl) (fun _ => rfl) (fun _ _ => rfl) (Pool.A_eq (E1 m)) (Pool.hin (E1 m)) (Pool.hout (E1 m)) (Gen.V2_of m (outs m)) (by decide) (by decide) fun c w hw => by
    rcases (by decide : ∀ w : Fin cfg0.W, (cfg0.win w).isOut = true → w = 2 ∨ w = 3) w hw with rfl | rfl
    exacts [(W2_arr m c 2).symm.trans (E2_v1_0 m c).symm, (W2_arr m c 3).symm.trans (E2_v1_1 m c).symm]
def reg1 := reg m launch1 (Gen.V3 m (outs m)) (Gen.V4 m (outs m)) (fun c => (Vn.body_obligation (E3 m) c).loose)
  (fun _ _ => rfl) (fun _ => rfl) (fun _ _ => rfl) (Vn.A_eq (E3 m)) (fun _ => .rfl) (fun _ => .rfl) (Gen.V4_of m (outs m)) (by decide) (by decide) fun c w hw => by
    obtain rfl := (by decide : ∀ w : Fin cfg1.W, (cfg1.win w).isOut = true → w = 9) w hw
    exact (W4_arr m c 9).symm.trans (E4_v25 m c).symm
def reg2 := reg m launch2 (Gen.V5 m (outs m)) (Gen.V6 m (outs m)) (fun c => (Node.body_obligation (E5 m) c).loose)
  (fun _ _ => rfl) (fun _ => rfl) (fun _ _ => rfl) (Node.A_eq (E5 m)) (fun _ => .rfl) (fun _ => .rfl) (Gen.V6_of m (outs m)) (by decide) (by decide) fun c w hw => by
    obtain rfl := (by decide : ∀ w : Fin cfg2.W, (cfg2.win w).isOut = true → w = 10) w hw
    exact (W6_arr m c 10).symm.trans (E6_v30 m c).symm

set_option backward.isDefEq.respectTransparency.types false in
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = Gen.V6 m (outs m) c b) := by
  refine Pipeline.θ_run_regions_kit_dev (pcfgs (F := F)) Gen.adm (pdats m) () cellOf_inj emb₁ defs₀ 𝒱₀ L lv m ρ main
    (Gen.segs m (outs m) 𝒱₀ L lv (fun _ c => R c) () (pdats m) (reg0 m) (reg1 m) (reg2 m))
    (fun c Q => by
      rewrite [main_chain c, Pipeline.Seg.run_eq_chain]
      exact .rfl)
    (fun c => by simp only [Gen.segs, Pipeline.Seg.pipes_host, Pipeline.Seg.pipes_region, Pipeline.Seg.pipes_nil]; decide)
    (0 : Dev nD → CellTallies nD τ sig Unit) (fun _ _ => rfl) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V6 m (outs m) c))
    (hch := fun c => ⟨.rfl, .rfl, .rfl, .rfl, .rfl, .rfl, sep_mono .rfl sep_elim_right⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V6 m (outs m) c b)
    (hfin := fun c s' => by
      iintro ⟨Hh, HSI⟩
      unfold StableHlo.held
      imodintro
      iapply (pointsTo_read_all (Pipeline.ucRefs τ sig) (fun b => (((c : Thread nD τ)).1, b)) (Gen.V6 m (outs m) c) s')
      isplitl [Hh] <;> iassumption)
    (hQ := fun _ h => h)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A buffer the run reads back whose last contents are the launch's ends as launched. -/
theorem kept {s : MemSt nD τ sig (Elt F)} {c : Dev nD} {b : Ref sig .tc}
    (h : ∀ b ∈ Pipeline.ucRefs τ sig, s.mem ((c : Thread nD τ).1, b) = Gen.V6 m (outs m) c b)
    (hV : Gen.V6 m (outs m) c b = m ((c : Thread nD τ).loc b)) (hb : ¬ (Proc.devRef .tc b : DevRef τ sig).isScoped := by decide) :
    s.mem ((c : Thread nD τ).loc b) = m ((c : Thread nD τ).loc b) :=
  (h _ (mem_uc b hb)).trans hV

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c =>
    ⟨kept m (h c) (Gen.V6_main_arg0 ..), kept m (h c) (Gen.V6_main_arg1 ..), kept m (h c) (Gen.V6_main_arg2 ..),
     kept m (h c) (Gen.V6_main_arg3 ..), kept m (h c) (Gen.V6_main_arg4 ..), kept m (h c) (Gen.V6_main_arg5 ..),
     kept m (h c) (Gen.V6_main_arg6 ..), kept m (h c) (Gen.V6_main_arg7 ..), kept m (h c) (Gen.V6_main_arg8 ..),
     kept m (h c) (Gen.V6_main_arg9 ..), kept m (h c) (Gen.V6_main_arg10 ..), kept m (h c) (Gen.V6_main_arg11 ..),
     kept m (h c) (Gen.V6_main_arg12 ..), kept m (h c) (Gen.V6_main_arg13 ..), kept m (h c) (Gen.V6_main_arg14 ..)⟩) (run_all m ρ)

theorem V6_v30 (c : Dev nD) : Gen.V6 m (outs m) c main_v30 = (Node.dat (E5 m) c).arrAt 10 cfg2.N :=
  (E6_v30 m c).trans (W6_arr m c 10)
theorem V6_v25 (c : Dev nD) : Gen.V6 m (outs m) c main_v25 = (Vn.dat (E3 m) c).arrAt 9 cfg1.N :=
  (Gen.V6_of m (outs m) c main_v25 (by decide)).trans ((Gen.V5_of m (outs m) c main_v25 (by decide)).trans ((E4_v25 m c).trans (W4_arr m c 9)))

end Cert.Kernel.Launch

end
-- ==== Proof.PoolCases.lean ====
import proofs.«419202_j25975962206499_3_alg».proof.Proof.Gen.KernelIdeal.Launch
import proofs.«419202_j25975962206499_3_alg».proof.Proof.Gen.KernelIdeal.Skeleton
import proofs.«419202_j25975962206499_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The point is the first row block of its half: positions ≡ 0 (mod 25). -/
abbrev condFirst (i : grid0.Coords) : Prop := (Scalar.cmpi .ne (Scalar.extui (Scalar.cmpi .eq (BitVec.ofNat 32 (i 1).val) 0#32)) 0#32) = 1#1

theorem hcondFirst : ∀ t : Fin cfg0.N, condFirst (grid0.coords t) ↔ t.val % 25 = 0 :=
  (by decide +kernel : ∀ t : Fin grid0.N, condFirst (grid0.coords t) ↔ t.val % 25 = 0)

/-- The point is the last row block of its half: positions ≡ 24 (mod 25). -/
abbrev condLast (i : grid0.Coords) : Prop := k0_cond2 i = 1#1

theorem hcondLast : ∀ t : Fin cfg0.N, condLast (grid0.coords t) ↔ t.val % 25 = 24 :=
  (by decide +kernel : ∀ t : Fin grid0.N, condLast (grid0.coords t) ↔ t.val % 25 = 24)

theorem idle2 : ∀ t : Fin cfg0.N, ¬condLast (grid0.coords t) → cfg0.idle 2 (grid0.coords t) = true := by decide +kernel
theorem noFlush2 : ∀ t : Fin cfg0.N, ¬condLast (grid0.coords t) → (cfg0.win 2).flush t = false := by decide +kernel
theorem idle3 : ∀ t : Fin cfg0.N, ¬condLast (grid0.coords t) → cfg0.idle 3 (grid0.coords t) = true := by decide +kernel
theorem noFlush3 : ∀ t : Fin cfg0.N, ¬condLast (grid0.coords t) → (cfg0.win 3).flush t = false := by decide +kernel

theorem live2 : ∀ t : Fin cfg0.N, condLast (grid0.coords t) → cfg0.idle 2 (grid0.coords t) = false := by decide +kernel
theorem live3 : ∀ t : Fin cfg0.N, condLast (grid0.coords t) → cfg0.idle 3 (grid0.coords t) = false := by decide +kernel

abbrev VO2 : View sig .tc .vmem S1x128x512 .f32 := (Memref.whole cc0_stg2_0 : Memref sig .tc .vmem S1x128x512 .f32).view
abbrev VO3 : View sig .tc .vmem S1x1x128 .f32 := (Memref.whole cc0_stg3_0 : Memref sig .tc .vmem S1x1x128 .f32).view

abbrev ms0 (t : Fin cfg0.N) : Memref sig .tc .vmem S2000x1 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2000x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x128x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x128 .f32 := win0_3.stage (cfg0.slots t 3)
abbrev hs3 (t : Fin cfg0.N) : (ms3 t).IsWhole := hstage0_3 ((cfg0.slots t 3).cast nbuf0_3)

abbrev accM : Memref sig .tc .vmem S128x512 .f32 := Memref.whole cc0_scratch0
abbrev cntM : Memref sig .tc .vmem S1x128 .f32 := Memref.whole cc0_scratch1
abbrev VAcc : View sig .tc .vmem S128x512 .f32 := accM.view
abbrev VCnt : View sig .tc .vmem S1x128 .f32 := cntM.view

abbrev restBut (c : Dev nD) : sProp 𝕄 :=
  Pipeline.scopedRestBut (Ix := Unit) (Name := ℕ) (U := UR sig nD τ) (Lvl := ℕ) (Val := Elt F) spec0 c [cc0_scratch0, cc0_scratch1]

/-- The region's invariant with the two accumulators split off. -/
theorem PhiA_eq (c : Dev nD) :
    (Pipeline.ΦA spec0 c : sProp 𝕄)
      = iprop(iprop(iprop((∃ d, owns (c : Thread nD τ) accM fullShare d) ∗ (∃ d, owns (c : Thread nD τ) cntM fullShare d)) ∗ restBut (F := F) c) ∗ (∃ r, prngReg c r)) := by
  unfold Pipeline.ΦA; rw [scopedRest0_split]; simp only [accM, cntM, owns_whole]; try rfl

end Cert.KernelIdeal.Pool

end
-- ==== Proof.PoolRunA.lean ====
import proofs.«419202_j25975962206499_3_alg».proof.Proof.PoolCases

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Cert.KernelIdeal Cert.KernelIdeal.Gen

variable {F : FTy → Type} [FloatOps F]

local notation "𝕄" => MT nD τ sig Unit (Elt F) ℕ (UR sig nD τ) ℕ

set_option maxHeartbeats 1000000 in
def kernelRun_A (c : Dev nD) (i : grid0.Coords) (arg2 : Memref sig .tc .vmem S2000x1 .i32) (harg2 : arg2.IsWhole) (arg3 : Memref sig .tc .vmem S2000x512 .f32) (harg3 : arg3.IsWhole) (arg4 : Memref sig .tc .vmem S1x128x512 .f32) (harg4 : arg4.IsWhole) (arg5 : Memref sig .tc .vmem S1x1x128 .f32) (harg5 : arg5.IsWhole) (arg6 : Memref sig .tc .vmem S128x512 .f32) (harg6 : arg6.IsWhole) (arg7 : Memref sig .tc .vmem S1x128 .f32) (harg7 : arg7.IsWhole) (hc0 : condFirst i) (hc1 : ¬condLast i)
    (x0 : Vec F S2000x1 .i32) (x1 : Vec F S2000x512 .f32) :
    Σ' (L2 : List (View.Piece (Elt F) S1x128x512 .f32)), Σ' (L3 : List (View.Piece (Elt F) S1x1x128 .f32)), Σ' (LS0 : List (View.Piece (Elt F) S128x512 .f32)), { LS1 : List (View.Piece (Elt F) S1x128 .f32) //
      ∀ (xi2 : Vec F S1x128x512 .f32) (xi3 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__segsum_kernel i arg2 harg2 arg3 harg3 arg4 harg4 arg5 harg5 arg6 harg6 arg7 harg7) K } := by
  refine ⟨[], [], ?_, ?_, fun xi2 xi3 E K => ?run⟩
  case run =>
    simp only [cc0__segsum_kernel_eq_skeleton]; unfold cc0__segsum_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Pool

end
-- ==== Proof.PoolRunB.lean ====
import proofs.«419202_j25975962206499_3_alg».proof.Proof.PoolRunA

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Cert.KernelIdeal Cert.KernelIdeal.Gen

variable {F : FTy → Type} [FloatOps F]

local notation "𝕄" => MT nD τ sig Unit (Elt F) ℕ (UR sig nD τ) ℕ

set_option maxHeartbeats 1000000 in
def kernelRun_B (c : Dev nD) (i : grid0.Coords) (arg2 : Memref sig .tc .vmem S2000x1 .i32) (harg2 : arg2.IsWhole) (arg3 : Memref sig .tc .vmem S2000x512 .f32) (harg3 : arg3.IsWhole) (arg4 : Memref sig .tc .vmem S1x128x512 .f32) (harg4 : arg4.IsWhole) (arg5 : Memref sig .tc .vmem S1x1x128 .f32) (harg5 : arg5.IsWhole) (arg6 : Memref sig .tc .vmem S128x512 .f32) (harg6 : arg6.IsWhole) (arg7 : Memref sig .tc .vmem S1x128 .f32) (harg7 : arg7.IsWhole) (hc0 : ¬condFirst i) (hc1 : ¬condLast i)
    (x0 : Vec F S2000x1 .i32) (x1 : Vec F S2000x512 .f32) (xs0 : Vec F S128x512 .f32) (xs1 : Vec F S1x128 .f32) :
    Σ' (L2 : List (View.Piece (Elt F) S1x128x512 .f32)), Σ' (L3 : List (View.Piece (Elt F) S1x1x128 .f32)), Σ' (LS0 : List (View.Piece (Elt F) S128x512 .f32)), { LS1 : List (View.Piece (Elt F) S1x128 .f32) //
      ∀ (xi2 : Vec F S1x128x512 .f32) (xi3 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__segsum_kernel i arg2 harg2 arg3 harg3 arg4 harg4 arg5 harg5 arg6 harg6 arg7 harg7) K } := by
  refine ⟨[], [], ?_, ?_, fun xi2 xi3 E K => ?run⟩
  case run =>
    simp only [cc0__segsum_kernel_eq_skeleton]; unfold cc0__segsum_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Pool

end
-- ==== Proof.PoolRunC.lean ====
import proofs.«419202_j25975962206499_3_alg».proof.Proof.PoolRunB

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Cert.KernelIdeal Cert.KernelIdeal.Gen

variable {F : FTy → Type} [FloatOps F]

local notation "𝕄" => MT nD τ sig Unit (Elt F) ℕ (UR sig nD τ) ℕ

set_option maxHeartbeats 1000000 in
def kernelRun_C (c : Dev nD) (i : grid0.Coords) (arg2 : Memref sig .tc .vmem S2000x1 .i32) (harg2 : arg2.IsWhole) (arg3 : Memref sig .tc .vmem S2000x512 .f32) (harg3 : arg3.IsWhole) (arg4 : Memref sig .tc .vmem S1x128x512 .f32) (harg4 : arg4.IsWhole) (arg5 : Memref sig .tc .vmem S1x1x128 .f32) (harg5 : arg5.IsWhole) (arg6 : Memref sig .tc .vmem S128x512 .f32) (harg6 : arg6.IsWhole) (arg7 : Memref sig .tc .vmem S1x128 .f32) (harg7 : arg7.IsWhole) (hc0 : ¬condFirst i) (hc1 : condLast i)
    (x0 : Vec F S2000x1 .i32) (x1 : Vec F S2000x512 .f32) (xs0 : Vec F S128x512 .f32) (xs1 : Vec F S1x128 .f32) :
    Σ' (L2 : List (View.Piece (Elt F) S1x128x512 .f32)), Σ' (L3 : List (View.Piece (Elt F) S1x1x128 .f32)), Σ' (LS0 : List (View.Piece (Elt F) S128x512 .f32)), { LS1 : List (View.Piece (Elt F) S1x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__segsum_kernel i arg2 harg2 arg3 harg3 arg4 harg4 arg5 harg5 arg6 harg6 arg7 harg7) K } := by
  refine ⟨?_, ?_, ?_, ?_, fun E K => ?run⟩
  case run =>
    simp only [cc0__segsum_kernel_eq_skeleton]; unfold cc0__segsum_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    iexists _; iexact HS1

end Cert.KernelIdeal.Pool

end
-- ==== Proof.PoolData.lean ====
import proofs.«419202_j25975962206499_3_alg».proof.Proof.PoolRunC

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

/-- Pieces that cover a buffer leave it reading what they alone write, whatever it held. -/
theorem owns_writes {s : Shape} {e : EltTy} {m : Memref sig .tc .vmem s e} (v : View sig .tc .vmem s e) {L : List (View.Piece (Elt F) s e)}
    (h : ∀ y, ∃ p ∈ L, y ∈ p.1.set) :
    (iprop(∃ f, m.view.loc (c : Thread nD τ) ↦[m.view.set]{fullShare} m.view.writes (Elt F) f L) : sProp 𝕄)
      ⊢ owns (c : Thread nD τ) m fullShare (v.read (Elt F) (v.writes (Elt F) v.junk L)) := by
  unfold owns; iintro ⟨%f, H⟩; iexists _; isplitr; swap; · iexact H
  ipureintro; exact View.read_writes_of_cover _ _ _ _ _ h

section
variable (i : grid0.Coords) (arg2 : Memref sig .tc .vmem S2000x1 .i32) (harg2 : arg2.IsWhole) (arg3 : Memref sig .tc .vmem S2000x512 .f32) (harg3 : arg3.IsWhole) (arg4 : Memref sig .tc .vmem S1x128x512 .f32) (harg4 : arg4.IsWhole) (arg5 : Memref sig .tc .vmem S1x1x128 .f32) (harg5 : arg5.IsWhole) (arg6 : Memref sig .tc .vmem S128x512 .f32) (harg6 : arg6.IsWhole) (arg7 : Memref sig .tc .vmem S1x128 .f32) (harg7 : arg7.IsWhole)

section
variable (hc0 : condFirst i) (hc1 : ¬condLast i) (x0 : Vec F S2000x1 .i32) (x1 : Vec F S2000x512 .f32)
theorem cover_A_acc (y : S128x512.Idx) : ∃ pc ∈ (kernelRun_A c i arg2 harg2 arg3 harg3 arg4 harg4 arg5 harg5 arg6 harg6 arg7 harg7 hc0 hc1 x0 x1).2.2.1, y ∈ pc.1.set :=
  View.cover_of_tiledL _ S128x512.size (by sl_kernel_rfl) y
def acc_A : Vec F S128x512 .f32 := VAcc.read (Elt F) (VAcc.writes (Elt F) VAcc.junk (kernelRun_A c i arg2 harg2 arg3 harg3 arg4 harg4 arg5 harg5 arg6 harg6 arg7 harg7 hc0 hc1 x0 x1).2.2.1)
theorem cover_A_cnt (y : S1x128.Idx) : ∃ pc ∈ (kernelRun_A c i arg2 harg2 arg3 harg3 arg4 harg4 arg5 harg5 arg6 harg6 arg7 harg7 hc0 hc1 x0 x1).2.2.2.1, y ∈ pc.1.set :=
  View.cover_of_tiledL _ S1x128.size (by sl_kernel_rfl) y
def cnt_A : Vec F S1x128 .f32 := VCnt.read (Elt F) (VCnt.writes (Elt F) VCnt.junk (kernelRun_A c i arg2 harg2 arg3 harg3 arg4 harg4 arg5 harg5 arg6 harg6 arg7 harg7 hc0 hc1 x0 x1).2.2.2.1)
end

section
variable (hc0 : ¬condFirst i) (hc1 : ¬condLast i) (x0 : Vec F S2000x1 .i32) (x1 : Vec F S2000x512 .f32) (xs0 : Vec F S128x512 .f32) (xs1 : Vec F S1x128 .f32)
theorem cover_B_acc (y : S128x512.Idx) : ∃ pc ∈ (kernelRun_B c i arg2 harg2 arg3 harg3 arg4 harg4 arg5 harg5 arg6 harg6 arg7 harg7 hc0 hc1 x0 x1 xs0 xs1).2.2.1, y ∈ pc.1.set :=
  View.cover_of_tiledL _ S128x512.size (by sl_kernel_rfl) y
def acc_B : Vec F S128x512 .f32 := VAcc.read (Elt F) (VAcc.writes (Elt F) VAcc.junk (kernelRun_B c i arg2 harg2 arg3 harg3 arg4 harg4 arg5 harg5 arg6 harg6 arg7 harg7 hc0 hc1 x0 x1 xs0 xs1).2.2.1)
theorem cover_B_cnt (y : S1x128.Idx) : ∃ pc ∈ (kernelRun_B c i arg2 harg2 arg3 harg3 arg4 harg4 arg5 harg5 arg6 harg6 arg7 harg7 hc0 hc1 x0 x1 xs0 xs1).2.2.2.1, y ∈ pc.1.set :=
  View.cover_of_tiledL _ S1x128.size (by sl_kernel_rfl) y
def cnt_B : Vec F S1x128 .f32 := VCnt.read (Elt F) (VCnt.writes (Elt F) VCnt.junk (kernelRun_B c i arg2 harg2 arg3 harg3 arg4 harg4 arg5 harg5 arg6 harg6 arg7 harg7 hc0 hc1 x0 x1 xs0 xs1).2.2.2.1)
end

section
variable (hc0 : ¬condFirst i) (hc1 : condLast i) (x0 : Vec F S2000x1 .i32) (x1 : Vec F S2000x512 .f32) (xs0 : Vec F S128x512 .f32) (xs1 : Vec F S1x128 .f32)
theorem cover_C_out2 (y : S1x128x512.Idx) : ∃ pc ∈ (kernelRun_C c i arg2 harg2 arg3 harg3 arg4 harg4 arg5 harg5 arg6 harg6 arg7 harg7 hc0 hc1 x0 x1 xs0 xs1).1, y ∈ pc.1.set :=
  View.cover_of_tiledL _ S1x128x512.size (by sl_kernel_rfl) y
def out2_C : Vec F S1x128x512 .f32 := VO2.read (Elt F) (VO2.writes (Elt F) VO2.junk (kernelRun_C c i arg2 harg2 arg3 harg3 arg4 harg4 arg5 harg5 arg6 harg6 arg7 harg7 hc0 hc1 x0 x1 xs0 xs1).1)
theorem cover_C_out3 (y : S1x1x128.Idx) : ∃ pc ∈ (kernelRun_C c i arg2 harg2 arg3 harg3 arg4 harg4 arg5 harg5 arg6 harg6 arg7 harg7 hc0 hc1 x0 x1 xs0 xs1).2.1, y ∈ pc.1.set :=
  View.cover_of_tiledL _ S1x1x128.size (by sl_kernel_rfl) y
def out3_C : Vec F S1x1x128 .f32 := VO3.read (Elt F) (VO3.writes (Elt F) VO3.junk (kernelRun_C c i arg2 harg2 arg3 harg3 arg4 harg4 arg5 harg5 arg6 harg6 arg7 harg7 hc0 hc1 x0 x1 xs0 xs1).2.1)
theorem cover_C_acc (y : S128x512.Idx) : ∃ pc ∈ (kernelRun_C c i arg2 harg2 arg3 harg3 arg4 harg4 arg5 harg5 arg6 harg6 arg7 harg7 hc0 hc1 x0 x1 xs0 xs1).2.2.1, y ∈ pc.1.set :=
  View.cover_of_tiledL _ S128x512.size (by sl_kernel_rfl) y
def acc_C : Vec F S128x512 .f32 := VAcc.read (Elt F) (VAcc.writes (Elt F) VAcc.junk (kernelRun_C c i arg2 harg2 arg3 harg3 arg4 harg4 arg5 harg5 arg6 harg6 arg7 harg7 hc0 hc1 x0 x1 xs0 xs1).2.2.1)
theorem cover_C_cnt (y : S1x128.Idx) : ∃ pc ∈ (kernelRun_C c i arg2 harg2 arg3 harg3 arg4 harg4 arg5 harg5 arg6 harg6 arg7 harg7 hc0 hc1 x0 x1 xs0 xs1).2.2.2.1, y ∈ pc.1.set :=
  View.cover_of_tiledL _ S1x128.size (by sl_kernel_rfl) y
def cnt_C : Vec F S1x128 .f32 := VCnt.read (Elt F) (VCnt.writes (Elt F) VCnt.junk (kernelRun_C c i arg2 harg2 arg3 harg3 arg4 harg4 arg5 harg5 arg6 harg6 arg7 harg7 hc0 hc1 x0 x1 xs0 xs1).2.2.2.1)
end

end

abbrev Quad (F : FTy → Type) [FloatOps F] : Type := Vec F S1x128x512 .f32 × Vec F S1x1x128 .f32 × Vec F S128x512 .f32 × Vec F S1x128 .f32

/-- A half's first point: the accumulators are reset and the block added; the two output blocks are not written, their entries here never consulted. -/
def atA (t : Fin cfg0.N) (h0 : t.val % 25 = 0) (h1 : ¬t.val % 25 = 24) : Quad F :=
  (VO2.read (Elt F) VO2.junk, VO3.read (Elt F) VO3.junk,
   acc_A c (grid0.coords t) (ms0 t) (hs0 t) (ms1 t) (hs1 t) (ms2 t) (hs2 t) (ms3 t) (hs3 t) accM (Memref.isWhole_whole _) cntM (Memref.isWhole_whole _) ((hcondFirst t).mpr h0) (fun h => h1 ((hcondLast t).mp h)) (iblk V c 0 t) (iblk V c 1 t),
   cnt_A c (grid0.coords t) (ms0 t) (hs0 t) (ms1 t) (hs1 t) (ms2 t) (hs2 t) (ms3 t) (hs3 t) accM (Memref.isWhole_whole _) cntM (Memref.isWhole_whole _) ((hcondFirst t).mpr h0) (fun h => h1 ((hcondLast t).mp h)) (iblk V c 0 t) (iblk V c 1 t))

/-- A middle point: the block is added to what the point before left; the output blocks are not written either. -/
def atB (t : Fin cfg0.N) (h0 : ¬t.val % 25 = 0) (h1 : ¬t.val % 25 = 24) (xs0 : Vec F S128x512 .f32) (xs1 : Vec F S1x128 .f32) : Quad F :=
  (VO2.read (Elt F) VO2.junk, VO3.read (Elt F) VO3.junk,
   acc_B c (grid0.coords t) (ms0 t) (hs0 t) (ms1 t) (hs1 t) (ms2 t) (hs2 t) (ms3 t) (hs3 t) accM (Memref.isWhole_whole _) cntM (Memref.isWhole_whole _) (fun h => h0 ((hcondFirst t).mp h)) (fun h => h1 ((hcondLast t).mp h)) (iblk V c 0 t) (iblk V c 1 t) xs0 xs1,
   cnt_B c (grid0.coords t) (ms0 t) (hs0 t) (ms1 t) (hs1 t) (ms2 t) (hs2 t) (ms3 t) (hs3 t) accM (Memref.isWhole_whole _) cntM (Memref.isWhole_whole _) (fun h => h0 ((hcondFirst t).mp h)) (fun h => h1 ((hcondLast t).mp h)) (iblk V c 0 t) (iblk V c 1 t) xs0 xs1)

/-- A half's last point: the block is added and the accumulators are re-laid into the two output blocks. -/
def atC (t : Fin cfg0.N) (h0 : ¬t.val % 25 = 0) (h1 : t.val % 25 = 24) (xs0 : Vec F S128x512 .f32) (xs1 : Vec F S1x128 .f32) : Quad F :=
  (out2_C c (grid0.coords t) (ms0 t) (hs0 t) (ms1 t) (hs1 t) (ms2 t) (hs2 t) (ms3 t) (hs3 t) accM (Memref.isWhole_whole _) cntM (Memref.isWhole_whole _) (fun h => h0 ((hcondFirst t).mp h)) ((hcondLast t).mpr h1) (iblk V c 0 t) (iblk V c 1 t) xs0 xs1,
   out3_C c (grid0.coords t) (ms0 t) (hs0 t) (ms1 t) (hs1 t) (ms2 t) (hs2 t) (ms3 t) (hs3 t) accM (Memref.isWhole_whole _) cntM (Memref.isWhole_whole _) (fun h => h0 ((hcondFirst t).mp h)) ((hcondLast t).mpr h1) (iblk V c 0 t) (iblk V c 1 t) xs0 xs1,
   acc_C c (grid0.coords t) (ms0 t) (hs0 t) (ms1 t) (hs1 t) (ms2 t) (hs2 t) (ms3 t) (hs3 t) accM (Memref.isWhole_whole _) cntM (Memref.isWhole_whole _) (fun h => h0 ((hcondFirst t).mp h)) ((hcondLast t).mpr h1) (iblk V c 0 t) (iblk V c 1 t) xs0 xs1,
   cnt_C c (grid0.coords t) (ms0 t) (hs0 t) (ms1 t) (hs1 t) (ms2 t) (hs2 t) (ms3 t) (hs3 t) accM (Memref.isWhole_whole _) cntM (Memref.isWhole_whole _) (fun h => h0 ((hcondFirst t).mp h)) ((hcondLast t).mpr h1) (iblk V c 0 t) (iblk V c 1 t) xs0 xs1)

/-- The four contents after position `n`, by recursion: only a half's first point does not start from what `n - 1` left. -/
def outsAt : (n : ℕ) → n < cfg0.N → Vec F S1x128x512 .f32 × Vec F S1x1x128 .f32 × Vec F S128x512 .f32 × Vec F S1x128 .f32
  | 0, hn => atA V c ⟨0, hn⟩ (Nat.zero_mod _) (by show ¬(0 % 25 = 24); decide)
  | n + 1, hn =>
    if h0 : (n + 1) % 25 = 0 then atA V c ⟨n + 1, hn⟩ h0 (by show ¬(n + 1) % 25 = 24; omega)
    else if h1 : (n + 1) % 25 = 24 then
      atC V c ⟨n + 1, hn⟩ h0 h1 (outsAt n (Nat.lt_of_succ_lt hn)).2.2.1 (outsAt n (Nat.lt_of_succ_lt hn)).2.2.2
    else atB V c ⟨n + 1, hn⟩ h0 h1 (outsAt n (Nat.lt_of_succ_lt hn)).2.2.1 (outsAt n (Nat.lt_of_succ_lt hn)).2.2.2

theorem outsAt_A (t : Fin cfg0.N) (h0 : t.val % 25 = 0) (h1 : ¬t.val % 25 = 24) :
    outsAt V c t.val t.isLt = atA V c t h0 h1 := by
  obtain ⟨_ | n, hn⟩ := t
  · rfl
  · exact dif_pos h0

theorem outsAt_B (t : Fin cfg0.N) (h0 : ¬t.val % 25 = 0) (h1 : ¬t.val % 25 = 24) :
    outsAt V c t.val t.isLt = atB V c t h0 h1 (outsAt V c (t.val - 1) (Nat.lt_of_le_of_lt (Nat.sub_le _ _) t.isLt)).2.2.1 (outsAt V c (t.val - 1) (Nat.lt_of_le_of_lt (Nat.sub_le _ _) t.isLt)).2.2.2 := by
  obtain ⟨_ | n, hn⟩ := t
  · exact absurd (Nat.zero_mod _) h0
  · exact (dif_neg h0).trans ((dif_neg h1).trans rfl)

theorem outsAt_C (t : Fin cfg0.N) (h0 : ¬t.val % 25 = 0) (h1 : t.val % 25 = 24) :
    outsAt V c t.val t.isLt = atC V c t h0 h1 (outsAt V c (t.val - 1) (Nat.lt_of_le_of_lt (Nat.sub_le _ _) t.isLt)).2.2.1 (outsAt V c (t.val - 1) (Nat.lt_of_le_of_lt (Nat.sub_le _ _) t.isLt)).2.2.2 := by
  obtain ⟨_ | n, hn⟩ := t
  · exact absurd (Nat.zero_mod _) h0
  · exact (dif_neg h0).trans ((dif_pos h1).trans rfl)

/-- The invariant after a point: the two accumulators hold `q`'s last two entries. -/
def PhiAt (q : Quad F) : sProp 𝕄 :=
  iprop(owns (c : Thread nD τ) accM fullShare q.2.2.1 ∗ owns (c : Thread nD τ) cntM fullShare q.2.2.2 ∗ restBut (F := F) c ∗ ∃ r, prngReg c r)

def PhiS : (n : ℕ) → n ≤ cfg0.N → sProp 𝕄
  | 0, _ => Pipeline.ΦA spec0 c
  | n + 1, hn => PhiAt c (outsAt V c n hn)

theorem PhiS_pos (n : ℕ) (h : n ≤ cfg0.N) (hz : n ≠ 0) : PhiS V c n h = PhiAt c (outsAt V c (n - 1) (by omega)) := by
  cases n with
  | zero => exact absurd rfl hz
  | succ n => rfl

/-- Forgetting the accumulators' contents gives the entry form back. -/
theorem PhiS_weak : ∀ (n : ℕ) (h : n ≤ cfg0.N), PhiS V c n h ⊢ Pipeline.ΦA spec0 c
  | 0, _ => Entails.refl _
  | n + 1, _ => by
    rw [PhiA_eq]; unfold PhiS PhiAt
    iintro ⟨HS0, HS1, Hr, Hg⟩
    iframe Hr Hg
    isplitl [HS0]; · iexists _; iexact HS0
    iexists _; iexact HS1

def dat : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (outsAt V c t.val t.isLt).1
    | ⟨3, _⟩ => (outsAt V c t.val t.isLt).2.1
  Φ t := PhiS V c t.val (Nat.le_of_lt_succ t.isLt)
  q _ := fullShare
  owed _ := 0

theorem A_eq (w : Fin cfg0.W) : (dat V c).A w = V c (Pipeline.arrRef spec0 w) := by dsimp only [dat]

theorem after_0 (t : Fin cfg0.N) : (dat V c).after 0 t = iblk V c 0 t := by dsimp only [dat]
theorem after_1 (t : Fin cfg0.N) : (dat V c).after 1 t = iblk V c 1 t := by dsimp only [dat]
theorem after_2 (t : Fin cfg0.N) : (dat V c).after 2 t = (outsAt V c t.val t.isLt).1 := by dsimp only [dat]
theorem after_3 (t : Fin cfg0.N) : (dat V c).after 3 t = (outsAt V c t.val t.isLt).2.1 := by dsimp only [dat]

theorem before_0 (t : Fin cfg0.N) (d) : (dat V c).before 0 t d = iblk V c 0 t := (dat V c).before_fetched 0 t (fetch0_0 t) d
theorem before_1 (t : Fin cfg0.N) (d) : (dat V c).before 1 t d = iblk V c 1 t := (dat V c).before_fetched 1 t (fetch0_1 t) d

theorem leaves_live (w : Fin cfg0.W) (t : Fin cfg0.N) (h : cfg0.idle w (grid0.coords t) = false) :
    (dat V c).leavesExact w t = owns (c : Thread nD τ) ((cfg0.win w).stage (cfg0.slots t w)) fullShare ((dat V c).after w t) := by
  unfold Dat.leavesExact; rw [h]

set_option maxHeartbeats 4800000 in
/-- The body at any point: the invariant lends the accumulators and takes them back at the point's contents, which the found pieces cover. -/
theorem sound_body (t : Fin cfg0.N) :
    iprop(PhiS V c t.val (Nat.le_of_lt t.isLt) ∗ (dat V c).owesAt () t.castSucc
      ∗ (∃ d, owns (c : Thread nD τ) (ms0 t) fullShare ((dat V c).before 0 t d))
      ∗ (∃ d, owns (c : Thread nD τ) (ms1 t) fullShare ((dat V c).before 1 t d))
      ∗ (∃ d, owns (c : Thread nD τ) (ms2 t) fullShare ((dat V c).before 2 t d))
      ∗ (∃ d, owns (c : Thread nD τ) (ms3 t) fullShare ((dat V c).before 3 t d)))
    ⊢ wp frame (wpE (defs₀ (F := F)) Variants.none c none) Set.univ (bodyAt0 t) fun _ =>
      iprop(PhiAt c (outsAt V c t.val t.isLt) ∗ (dat V c).owesAt () t.castSucc
        ∗ (dat V c).leavesExact 0 t ∗ (dat V c).leavesExact 1 t ∗ (dat V c).leavesExact 2 t ∗ (dat V c).leavesExact 3 t) := by
  unfold bodyAt0
  simp only [before_0, before_1]
  rw [leaves_live V c 0 t rfl, leaves_live V c 1 t rfl, after_0, after_1]
  by_cases h1 : t.val % 25 = 24
  · have h0 : ¬t.val % 25 = 0 := by omega
    have hl := (hcondLast t).mpr h1
    rw [leaves_live V c 2 t (live2 t hl), leaves_live V c 3 t (live3 t hl), after_2, after_3]
    rw [outsAt_C V c t h0 h1, PhiS_pos V c t.val _ (by omega)]
    unfold atC PhiAt out2_C out3_C acc_C cnt_C; (try dsimp only)
    iintro ⟨⟨HS0, HS1, Hr, Hg⟩, Ho, ⟨%d0, H0⟩, ⟨%d1, H1⟩, ⟨%d2, H2⟩, ⟨%d3, H3⟩⟩
    iapply ((kernelRun_C c (grid0.coords t) _ _ _ _ _ _ _ _ _ _ _ _ (fun h => h0 ((hcondFirst t).mp h)) hl (iblk V c 0 t) (iblk V c 1 t) _ _).2.2.2.2 Set.univ _)
    iframe H0 H1 HS0 HS1
    isplitl [H2]; · iexists _; iexact H2
    isplitl [H3]; · iexists _; iexact H3
    iintro ⟨H0, H1, H2, H3, HS0, HS1⟩
    icases (owns_writes c VO2 (cover_C_out2 c _ _ _ _ _ _ _ _ _ _ _ _ _ _ _ _ _ _ _)) $$ H2 with H2
    icases (owns_writes c VO3 (cover_C_out3 c _ _ _ _ _ _ _ _ _ _ _ _ _ _ _ _ _ _ _)) $$ H3 with H3
    icases (owns_writes c VAcc (cover_C_acc c _ _ _ _ _ _ _ _ _ _ _ _ _ _ _ _ _ _ _)) $$ HS0 with HS0
    icases (owns_writes c VCnt (cover_C_cnt c _ _ _ _ _ _ _ _ _ _ _ _ _ _ _ _ _ _ _)) $$ HS1 with HS1
    iframe
  have hl : ¬condLast (grid0.coords t) := fun h => h1 ((hcondLast t).mp h)
  rw [Dat.leavesExact_idle (dat V c) 2 t (idle2 t hl) (noFlush2 t hl), Dat.leavesExact_idle (dat V c) 3 t (idle3 t hl) (noFlush3 t hl)]
  by_cases h0 : t.val % 25 = 0
  · have hw := PhiS_weak V c t.val (Nat.le_of_lt t.isLt)
    rw [PhiA_eq] at hw
    rw [outsAt_A V c t h0 h1]
    unfold atA PhiAt acc_A cnt_A; (try dsimp only)
    iintro ⟨HP, Ho, ⟨%d0, H0⟩, ⟨%d1, H1⟩, ⟨%d2, H2⟩, ⟨%d3, H3⟩⟩
    icases (hw) $$ HP with ⟨⟨⟨HS0, HS1⟩, Hr⟩, Hg⟩
    iapply ((kernelRun_A c (grid0.coords t) _ _ _ _ _ _ _ _ _ _ _ _ ((hcondFirst t).mpr h0) hl (iblk V c 0 t) (iblk V c 1 t)).2.2.2.2 _ _ Set.univ _)
    iframe H0 H1 H2 H3 HS0 HS1
    iintro ⟨H0, H1, H2, H3, HS0, HS1⟩
    icases (owns_writes c VAcc (cover_A_acc c _ _ _ _ _ _ _ _ _ _ _ _ _ _ _ _ _)) $$ HS0 with HS0
    icases (owns_writes c VCnt (cover_A_cnt c _ _ _ _ _ _ _ _ _ _ _ _ _ _ _ _ _)) $$ HS1 with HS1
    iframe HS0 HS1 Hr Hg Ho H0 H1
    isplitl [H2]; · iexists _; iexact H2
    iexists _; iexact H3
  · rw [outsAt_B V c t h0 h1, PhiS_pos V c t.val _ (by omega)]
    unfold atB PhiAt acc_B cnt_B; (try dsimp only)
    iintro ⟨⟨HS0, HS1, Hr, Hg⟩, Ho, ⟨%d0, H0⟩, ⟨%d1, H1⟩, ⟨%d2, H2⟩, ⟨%d3, H3⟩⟩
    iapply ((kernelRun_B c (grid0.coords t) _ _ _ _ _ _ _ _ _ _ _ _ (fun h => h0 ((hcondFirst t).mp h)) hl (iblk V c 0 t) (iblk V c 1 t) _ _).2.2.2.2 _ _ Set.univ _)
    iframe H0 H1 H2 H3 HS0 HS1
    iintro ⟨H0, H1, H2, H3, HS0, HS1⟩
    icases (owns_writes c VAcc (cover_B_acc c _ _ _ _ _ _ _ _ _ _ _ _ _ _ _ _ _ _ _)) $$ HS0 with HS0
    icases (owns_writes c VCnt (cover_B_cnt c _ _ _ _ _ _ _ _ _ _ _ _ _ _ _ _ _ _ _)) $$ HS1 with HS1
    iframe HS0 HS1 Hr Hg Ho H0 H1
    isplitl [H2]; · iexists _; iexact H2
    iexists _; iexact H3

theorem body_obligation : BodyObligation (dat (F := F) V c) (defs₀ (F := F)) Variants.none () Set.univ := fun t => by
  rw [bigSep_W0, bigSep_W0]
  exact sound_body V c t

theorem hin : Pipeline.ΦA spec0 c ⊢ (dat V c).Φ 0 := Entails.refl _

theorem hout : (dat V c).Φ (Fin.last cfg0.N) ⊢ Pipeline.ΦA spec0 c := PhiS_weak V c cfg0.N (Nat.le_refl _)

end Cert.KernelIdeal.Pool

end
-- ==== Proof.Blocks.lean ====
import proofs.«419202_j25975962206499_3_alg».proof.Proof.Gen.KernelIdeal.Skeleton

noncomputable section

namespace Cert.KernelIdeal.Hand

open Idealize.ShloMosaic Cert.KernelIdeal Cert.KernelIdeal.Gen

variable {F : FTy → Type} [FloatOps F]

-- What one grid point of each region computes, as one pure function of the blocks it is handed.
def poolAcc (b : Vec F S2000x1 .i32) (x : Vec F S2000x512 .f32) (acc : Vec F S128x512 .f32) : Vec F S128x512 .f32 :=
  k0_pay4 b x acc

def poolCnt (b : Vec F S2000x1 .i32) (cnt : Vec F S1x128 .f32) : Vec F S1x128 .f32 :=
  k0_pay5 b cnt

def poolAcc0 (b : Vec F S2000x1 .i32) (x : Vec F S2000x512 .f32) : Vec F S128x512 .f32 :=
  poolAcc b x (k0_pay1 (F := F))
def poolCnt0 (b : Vec F S2000x1 .i32) : Vec F S1x128 .f32 :=
  poolCnt b (k0_pay2 (F := F))

def poolOutSum (acc : Vec F S128x512 .f32) : Vec F S1x128x512 .f32 := k0_pay6 acc
def poolOutCnt (cnt : Vec F S1x128 .f32) : Vec F S1x1x128 .f32 := k0_pay7 cnt

def vnBlock (nm vn : Vec F S128x512 .f32) (w1a w1b : Vec F S512x512 .f32) (b1 : Vec F S1x512 .f32)
    (w2 : Vec F S512x512 .f32) (b2 g be : Vec F S1x512 .f32) : Vec F S128x512 .f32 :=
  k1_pay1 (k1_pay2 nm vn w1a w1b b1 w2 b2) (k1_pay3 nm vn w1a w1b b1 w2 b2) (k1_pay4 nm vn w1a w1b b1 w2 b2)
    (Scalar.ofBits .f32 0x44000000#32) g be

def nodeBlock (x : Vec F S1000x512 .f32) (b : Vec F S1000x1 .i32) (vnn : Vec F S128x512 .f32)
    (w3a w3b : Vec F S512x512 .f32) (b3 : Vec F S1x512 .f32) (w4 : Vec F S512x512 .f32) (b4 g be : Vec F S1x512 .f32) :
    Vec F S1000x512 .f32 :=
  k2_pay1 (k2_pay2 x b vnn w3a w3b b3 w4 b4) g be

end Cert.KernelIdeal.Hand

end
-- ==== Proof.VnBody.lean ====
import proofs.«419202_j25975962206499_3_alg».proof.Proof.Gen.KernelIdeal.Launch
import proofs.«419202_j25975962206499_3_alg».proof.Proof.Gen.KernelIdeal.Skeleton
import proofs.«419202_j25975962206499_3_alg».proof.Proof.Gen.KernelIdeal.Points
import proofs.«419202_j25975962206499_3_alg».proof.Proof.Blocks
import Idealize.ShloMosaic.Lib.Pipeline.RegionsLoop
import Idealize.ShloMosaic.Lib.Pipeline.FrameSuffix
import Idealize.ShloMosaic.Lib.Pipeline.Value
import Idealize.ShloMosaic.Lib.Ring

set_option maxRecDepth 16384

noncomputable section

namespace Cert.KernelIdeal.Vn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rA : Rect S128x512 := Rect.unit (s := S128x512) ![0, 0] S128x512.size inb_S128x512_S128x512_0_0
abbrev rB : Rect S512x512 := Rect.unit (s := S512x512) ![0, 0] S512x512.size inb_S512x512_S512x512_0_0
abbrev rC : Rect S1x512 := Rect.unit (s := S1x512) ![0, 0] S1x512.size inb_S1x512_S1x512_0_0

theorem zero2 : (![0, 0] : Fin 2 → ℕ) = fun _ => 0 := by funext a; fin_cases a <;> rfl

section
variable (x0 x1 : Vec F S128x512 .f32) (x2 x3 : Vec F S512x512 .f32) (x4 : Vec F S1x512 .f32) (x5 : Vec F S512x512 .f32) (x6 x7 x8 : Vec F S1x512 .f32)

def out : Vec F S128x512 .f32 :=
  View.canon [⟨rA, k1_pay1 (k1_pay2 (View.ld x0 rA) (View.ld x1 rA) (View.ld x2 rB) (View.ld x3 rB) (View.ld x4 rC) (View.ld x5 rB) (View.ld x6 rC)) (k1_pay3 (View.ld x0 rA) (View.ld x1 rA) (View.ld x2 rB) (View.ld x3 rB) (View.ld x4 rC) (View.ld x5 rB) (View.ld x6 rC)) (k1_pay4 (View.ld x0 rA) (View.ld x1 rA) (View.ld x2 rB) (View.ld x3 rB) (View.ld x4 rC) (View.ld x5 rB) (View.ld x6 rC))
    (Scalar.ofBits .f32 0x44000000#32) (View.ld x7 rC) (View.ld x8 rC)⟩]

theorem out_eq : out x0 x1 x2 x3 x4 x5 x6 x7 x8 = Hand.vnBlock x0 x1 x2 x3 x4 x5 x6 x7 x8 := by
  unfold out Hand.vnBlock
  rw [View.canon_unit_zero zero2]
  simp only [View.ld_unit_zero (S := S128x512) zero2, View.ld_unit_zero (S := S512x512) zero2,
    View.ld_unit_zero (S := S1x512) zero2]

theorem cover (p0 : Vec F S128x512 .f32) (y : S128x512.Idx) :
    ∃ pc ∈ ([⟨rA, p0⟩] : List (View.Piece (Elt F) S128x512 .f32)), y ∈ pc.1.set :=
  View.cover_of_tiled [⟨rA, p0⟩] S128x512.size (by rfl) y

set_option maxHeartbeats 4000000 in
/-- The body reads the inputs whole, keeps them, and stores `out` of them over the whole output. -/
theorem sound_kernel {c : Dev nD} {E : Set ℕ} {i : grid1.Coords} {arg0 arg1 arg9 : Memref sig .tc .vmem S128x512 .f32} {arg2 arg3 arg5 : Memref sig .tc .vmem S512x512 .f32} {arg4 arg6 arg7 arg8 : Memref sig .tc .vmem S1x512 .f32} {harg0 : arg0.IsWhole} {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} (K : PUnit → sProp 𝕄) :
    iprop(owns c.tc arg0 fullShare x0 ∗ owns c.tc arg1 fullShare x1 ∗ owns c.tc arg2 fullShare x2 ∗ owns c.tc arg3 fullShare x3 ∗ owns c.tc arg4 fullShare x4 ∗ owns c.tc arg5 fullShare x5 ∗ owns c.tc arg6 fullShare x6 ∗ owns c.tc arg7 fullShare x7 ∗ owns c.tc arg8 fullShare x8 ∗ (∃ d, owns c.tc arg9 fullShare d)
        ∗ (iprop(owns c.tc arg0 fullShare x0 ∗ owns c.tc arg1 fullShare x1 ∗ owns c.tc arg2 fullShare x2 ∗ owns c.tc arg3 fullShare x3 ∗ owns c.tc arg4 fullShare x4 ∗ owns c.tc arg5 fullShare x5 ∗ owns c.tc arg6 fullShare x6 ∗ owns c.tc arg7 fullShare x7 ∗ owns c.tc arg8 fullShare x8 ∗ owns c.tc arg9 fullShare (out x0 x1 x2 x3 x4 x5 x6 x7 x8)) -∗ K ⟨⟩))
      ⊢ wp frame (wpE (defs₀ (F := F)) Variants.none c none) E (cc1__vn_kernel i arg0 harg0 arg1 harg1 arg2 harg2 arg3 harg3 arg4 harg4 arg5 harg5 arg6 harg6 arg7 harg7 arg8 harg8 arg9 harg9) K := by
  simp only [cc1__vn_kernel_eq_skeleton]; unfold cc1__vn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst_vars
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  isplitl [H5]; · iexists f5; iframe H5; ipureintro; rfl
  isplitl [H6]; · iexists f6; iframe H6; ipureintro; rfl
  isplitl [H7]; · iexists f7; iframe H7; ipureintro; rfl
  isplitl [H8]; · iexists f8; iframe H8; ipureintro; rfl
  iexists _; iframe H9; ipureintro
  exact View.read_writes_eq_canon _ _ _ (cover _)

end

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => out (iblk V c 0 t) (iblk V c 1 t) (iblk V c 2 t) (iblk V c 3 t) (iblk V c 4 t) (iblk V c 5 t) (iblk V c 6 t) (iblk V c 7 t) (iblk V c 8 t)
  Φ _ := Pipeline.ΦA spec1 c
  q _ := fullShare
  owed _ := 0

theorem A_eq (c : Dev nD) (w : Fin cfg1.W) : (dat V c).A w = V c (Pipeline.arrRef spec1 w) := by
  dsimp only [dat]

theorem after_out (c : Dev nD) (t : Fin cfg1.N) : (dat V c).after 9 t = out (iblk V c 0 t) (iblk V c 1 t) (iblk V c 2 t) (iblk V c 3 t) (iblk V c 4 t) (iblk V c 5 t) (iblk V c 6 t) (iblk V c 7 t) (iblk V c 8 t) := by dsimp only [dat]

/-- The body leaves every input block in place, so what it finds at a point is what it leaves there. -/
theorem before_in (c : Dev nD) (t : Fin cfg1.N) (w : Fin cfg1.W) (hw : w ≠ 9) (d) : (dat V c).before w t d = (dat V c).after w t := by
  fin_cases w <;> first
    | exact absurd rfl hw
    | exact (dat V c).before_in_eq_fetched _ rfl (fun _ => rfl) (fun _ _ _ => rfl) (fun _ => rfl) t d

/-- The body's triple at the input blocks; the invariant passes through unread. -/
theorem body_obligation (c : Dev nD) : BodyObligation (dat (F := F) V c) (defs₀ (F := F)) Variants.none () Set.univ := fun t => by
  rw [bigSep_W1, bigSep_W1]
  simp (disch := decide) only [before_in V c t]
  dsimp only [dat]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel (iblk V c 0 t) (iblk V c 1 t) (iblk V c 2 t) (iblk V c 3 t) (iblk V c 4 t) (iblk V c 5 t) (iblk V c 6 t) (iblk V c 7 t) (iblk V c 8 t) _)
  iframe H0 H1 H2 H3 H4 H5 H6 H7 H8
  isplitl [H9]; · iexists _; iexact H9
  iintro H
  iframe
  iexact Ho

end Cert.KernelIdeal.Vn

end
-- ==== Proof.NodeBody.lean ====
import proofs.«419202_j25975962206499_3_alg».proof.Proof.Gen.KernelIdeal.Launch
import proofs.«419202_j25975962206499_3_alg».proof.Proof.Gen.KernelIdeal.Skeleton
import proofs.«419202_j25975962206499_3_alg».proof.Proof.Gen.KernelIdeal.Points
import proofs.«419202_j25975962206499_3_alg».proof.Proof.Blocks
import Idealize.ShloMosaic.Lib.Pipeline.RegionsLoop
import Idealize.ShloMosaic.Lib.Pipeline.FrameSuffix
import Idealize.ShloMosaic.Lib.Pipeline.Value
import Idealize.ShloMosaic.Lib.Ring

set_option maxRecDepth 16384

noncomputable section

namespace Cert.KernelIdeal.Node

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rX : Rect S1000x512 := Rect.unit (s := S1000x512) ![0, 0] S1000x512.size inb_S1000x512_S1000x512_0_0
abbrev rB : Rect S1000x1 := Rect.unit (s := S1000x1) ![0, 0] S1000x1.size inb_S1000x1_S1000x1_0_0
abbrev rV : Rect S128x512 := Rect.unit (s := S128x512) ![0, 0] S128x512.size inb_S128x512_S128x512_0_0
abbrev rW : Rect S512x512 := Rect.unit (s := S512x512) ![0, 0] S512x512.size inb_S512x512_S512x512_0_0
abbrev rR : Rect S1x512 := Rect.unit (s := S1x512) ![0, 0] S1x512.size inb_S1x512_S1x512_0_0

theorem hz : (![0, 0] : Fin 2 → ℕ) = fun _ => 0 := by funext a; fin_cases a <;> rfl

section
variable (x0 : Vec F S1000x512 .f32) (x1 : Vec F S1000x1 .i32) (x2 : Vec F S128x512 .f32) (x3 x4 : Vec F S512x512 .f32) (x5 : Vec F S1x512 .f32) (x6 : Vec F S512x512 .f32) (x7 x8 x9 : Vec F S1x512 .f32)

def out : Vec F S1000x512 .f32 :=
  View.canon [⟨rX, k2_pay1 (k2_pay2 (View.ld x0 rX) (View.ld x1 rB) (View.ld x2 rV) (View.ld x3 rW) (View.ld x4 rW) (View.ld x5 rR) (View.ld x6 rW) (View.ld x7 rR)) (View.ld x8 rR) (View.ld x9 rR)⟩]

theorem out_eq : out x0 x1 x2 x3 x4 x5 x6 x7 x8 x9 = Hand.nodeBlock x0 x1 x2 x3 x4 x5 x6 x7 x8 x9 := by
  show _ = k2_pay1 (k2_pay2 x0 x1 x2 x3 x4 x5 x6 x7) x8 x9
  unfold out
  rw [View.canon_unit_zero (S := S1000x512) hz]
  simp only [View.ld_unit_zero (S := S1000x512) hz, View.ld_unit_zero (S := S1000x1) hz, View.ld_unit_zero (S := S128x512) hz,
    View.ld_unit_zero (S := S512x512) hz, View.ld_unit_zero (S := S1x512) hz]

theorem cover (p0 : Vec F S1000x512 .f32) (y : S1000x512.Idx) :
    ∃ pc ∈ ([⟨rX, p0⟩] : List (View.Piece (Elt F) S1000x512 .f32)), y ∈ pc.1.set :=
  ⟨_, List.mem_singleton_self _, View.mem_set_unit_zero (S := S1000x512) hz inb_S1000x512_S1000x512_0_0 y⟩

set_option maxHeartbeats 4000000 in
/-- The body reads the inputs whole, keeps them, and stores `out` of them over the whole output. -/
theorem sound_kernel {c : Dev nD} {E : Set ℕ} {i : grid2.Coords} {arg0 arg10 : Memref sig .tc .vmem S1000x512 .f32} {arg1 : Memref sig .tc .vmem S1000x1 .i32} {arg2 : Memref sig .tc .vmem S128x512 .f32} {arg3 arg4 arg6 : Memref sig .tc .vmem S512x512 .f32} {arg5 arg7 arg8 arg9 : Memref sig .tc .vmem S1x512 .f32} {harg0 : arg0.IsWhole} {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} (K : PUnit → sProp 𝕄) :
    iprop(owns c.tc arg0 fullShare x0 ∗ owns c.tc arg1 fullShare x1 ∗ owns c.tc arg2 fullShare x2 ∗ owns c.tc arg3 fullShare x3 ∗ owns c.tc arg4 fullShare x4 ∗ owns c.tc arg5 fullShare x5 ∗ owns c.tc arg6 fullShare x6 ∗ owns c.tc arg7 fullShare x7 ∗ owns c.tc arg8 fullShare x8 ∗ owns c.tc arg9 fullShare x9 ∗ (∃ d, owns c.tc arg10 fullShare d)
        ∗ (iprop(owns c.tc arg0 fullShare x0 ∗ owns c.tc arg1 fullShare x1 ∗ owns c.tc arg2 fullShare x2 ∗ owns c.tc arg3 fullShare x3 ∗ owns c.tc arg4 fullShare x4 ∗ owns c.tc arg5 fullShare x5 ∗ owns c.tc arg6 fullShare x6 ∗ owns c.tc arg7 fullShare x7 ∗ owns c.tc arg8 fullShare x8 ∗ owns c.tc arg9 fullShare x9 ∗ owns c.tc arg10 fullShare (out x0 x1 x2 x3 x4 x5 x6 x7 x8 x9)) -∗ K ⟨⟩))
      ⊢ wp frame (wpE (defs₀ (F := F)) Variants.none c none) E (cc2__node_kernel i arg0 harg0 arg1 harg1 arg2 harg2 arg3 harg3 arg4 harg4 arg5 harg5 arg6 harg6 arg7 harg7 arg8 harg8 arg9 harg9 arg10 harg10) K := by
  simp only [cc2__node_kernel_eq_skeleton]; unfold cc2__node_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst_vars
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  isplitl [H5]; · iexists f5; iframe H5; ipureintro; rfl
  isplitl [H6]; · iexists f6; iframe H6; ipureintro; rfl
  isplitl [H7]; · iexists f7; iframe H7; ipureintro; rfl
  isplitl [H8]; · iexists f8; iframe H8; ipureintro; rfl
  isplitl [H9]; · iexists f9; iframe H9; ipureintro; rfl
  iexists _; iframe H10; ipureintro
  exact View.read_writes_eq_canon _ _ _ (cover _)

end

def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => out (iblk V c 0 t) (iblk V c 1 t) (iblk V c 2 t) (iblk V c 3 t) (iblk V c 4 t) (iblk V c 5 t) (iblk V c 6 t) (iblk V c 7 t) (iblk V c 8 t) (iblk V c 9 t)
  Φ _ := Pipeline.ΦA spec2 c
  q _ := fullShare
  owed _ := 0

theorem A_eq (c : Dev nD) (w : Fin cfg2.W) : (dat V c).A w = V c (Pipeline.arrRef spec2 w) := by
  dsimp only [dat]

theorem after_out (c : Dev nD) (t : Fin cfg2.N) : (dat V c).after 10 t = out (iblk V c 0 t) (iblk V c 1 t) (iblk V c 2 t) (iblk V c 3 t) (iblk V c 4 t) (iblk V c 5 t) (iblk V c 6 t) (iblk V c 7 t) (iblk V c 8 t) (iblk V c 9 t) := by dsimp only [dat]

/-- The body leaves every input block in place, so what it finds at a point is what it leaves there. -/
theorem before_in (c : Dev nD) (t : Fin cfg2.N) (w : Fin cfg2.W) (hw : w ≠ 10) (d) : (dat V c).before w t d = (dat V c).after w t := by
  fin_cases w <;> first
    | exact absurd rfl hw
    | exact (dat V c).before_in_eq_fetched _ rfl (fun _ => rfl) (fun _ _ _ => rfl) (fun _ => rfl) t d

/-- The body's triple at the input blocks; the invariant passes through unread. -/
theorem body_obligation (c : Dev nD) : BodyObligation (dat (F := F) V c) (defs₀ (F := F)) Variants.none () Set.univ := fun t => by
  rw [bigSep_W2, bigSep_W2]
  simp (disch := decide) only [before_in V c t]
  dsimp only [dat]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel (iblk V c 0 t) (iblk V c 1 t) (iblk V c 2 t) (iblk V c 3 t) (iblk V c 4 t) (iblk V c 5 t) (iblk V c 6 t) (iblk V c 7 t) (iblk V c 8 t) (iblk V c 9 t) _)
  iframe H0 H1 H2 H3 H4 H5 H6 H7 H8 H9
  isplitl [H10]; · iexists _; iexact H10
  iintro H
  iframe
  iexact Ho

end Cert.KernelIdeal.Node

end
-- ==== Proof.Launch.lean ====
import proofs.«419202_j25975962206499_3_alg».proof.Proof.Gen.KernelIdeal.Regions
import proofs.«419202_j25975962206499_3_alg».proof.Proof.PoolData
import proofs.«419202_j25975962206499_3_alg».proof.Proof.VnBody
import proofs.«419202_j25975962206499_3_alg».proof.Proof.NodeBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

abbrev E1 (c : Dev nD) (b : Ref sig .tc) : Buf (Elt F) ((c : Thread nD τ).loc b) := Gen.V1 m c b

def W2 (c : Dev nD) : Valuation τ sig (Elt F) :=
  Pipeline.withArrays spec0 c (Gen.V1 m c) fun w => (Pool.dat (E1 m) c).arrAt w cfg0.N
theorem W2_arr (c : Dev nD) (w : Fin cfg0.W) :
    W2 m c (Proc.devRef .tc (Pipeline.arrRef spec0 w)) = (Pool.dat (E1 m) c).arrAt w cfg0.N :=
  Pipeline.withArrays_arr spec0 launch0.win.arr_inj c _ _ w

def outsA : Gen.Outs (F := F) := fun _ r c => W2 m c r
abbrev E3 (c : Dev nD) (b : Ref sig .tc) : Buf (Elt F) ((c : Thread nD τ).loc b) := Gen.V3 m (outsA m) c b

def W4 (c : Dev nD) : Valuation τ sig (Elt F) :=
  Pipeline.withArrays spec1 c (Gen.V3 m (outsA m) c) fun w => (Vn.dat (E3 m) c).arrAt w cfg1.N
theorem W4_arr (c : Dev nD) (w : Fin cfg1.W) :
    W4 m c (Proc.devRef .tc (Pipeline.arrRef spec1 w)) = (Vn.dat (E3 m) c).arrAt w cfg1.N :=
  Pipeline.withArrays_arr spec1 launch1.win.arr_inj c _ _ w

def outsB : Gen.Outs (F := F) := fun J r c => if J = 2 then W2 m c r else W4 m c r
abbrev E5 (c : Dev nD) (b : Ref sig .tc) : Buf (Elt F) ((c : Thread nD τ).loc b) := Gen.V5 m (outsB m) c b

def W6 (c : Dev nD) : Valuation τ sig (Elt F) :=
  Pipeline.withArrays spec2 c (Gen.V5 m (outsB m) c) fun w => (Node.dat (E5 m) c).arrAt w cfg2.N
theorem W6_arr (c : Dev nD) (w : Fin cfg2.W) :
    W6 m c (Proc.devRef .tc (Pipeline.arrRef spec2 w)) = (Node.dat (E5 m) c).arrAt w cfg2.N :=
  Pipeline.withArrays_arr spec2 launch2.win.arr_inj c _ _ w

def outs : Gen.Outs (F := F) := fun J r c => if J = 2 then W2 m c r else if J = 4 then W4 m c r else W6 m c r

theorem E2_v1_0 (c : Dev nD) : Gen.V2 m (outs m) c main_v1_0 = W2 m c main_v1_0 :=
  (Function.update_of_ne (StableHlo.devRef_ne_of_ne (by decide)) ..).trans (Function.update_self ..)
theorem E2_v1_1 (c : Dev nD) : Gen.V2 m (outs m) c main_v1_1 = W2 m c main_v1_1 := Function.update_self ..
theorem E4_v25 (c : Dev nD) : Gen.V4 m (outs m) c main_v25 = W4 m c main_v25 := Function.update_self ..
theorem E6_v30 (c : Dev nD) : Gen.V6 m (outs m) c main_v30 = W6 m c main_v30 := Function.update_self ..

def pdats : (p : Fin 3) → (c : Dev nD) → Dat τ (Elt F) Unit ℕ (UR sig nD τ) ℕ (cfgs p) c
  | ⟨0, _⟩ => fun c => Pool.dat (E1 m) c
  | ⟨1, _⟩ => fun c => Vn.dat (E3 m) c
  | ⟨2, _⟩ => fun c => Node.dat (E5 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

theorem owesAt_intro {cfg : Cfg sig Λ₀} {c : Dev nD} (d : Dat τ (Elt F) Unit ℕ (UR sig nD τ) ℕ cfg c) (t : Fin (cfg.N + 1))
    (h0 : d.owed t = 0) (hr : d.recorded t = Set.univ) :
    iprop(∃ W, owes (c : Thread nD τ) (0 : CellTallies nD τ sig Unit) W) ⊢ (d.owesAt () t : sProp 𝕄) := by
  unfold Pipeline.Dat.owesAt Pipeline.owesWithin Pipeline.Dat.bound; rw [h0, hr]
  iintro ⟨%W, HO⟩; iexists W; isplitr; · ipureintro; exact fun _ _ => Or.inl trivial
  iexact HO
theorem owesAt_elim {cfg : Cfg sig Λ₀} {c : Dev nD} (d : Dat τ (Elt F) Unit ℕ (UR sig nD τ) ℕ cfg c) (t : Fin (cfg.N + 1))
    (h0 : d.owed t = 0) : (d.owesAt () t : sProp 𝕄) ⊢ iprop(∃ W, owes (c : Thread nD τ) (0 : CellTallies nD τ sig Unit) W) := by
  unfold Pipeline.Dat.owesAt Pipeline.owesWithin; rw [h0]
  iintro ⟨%W, -, HO⟩; iexists W; iexact HO

abbrev rd (V : Valuation τ sig (Elt F)) (c : Dev nD) (b : Ref sig .tc) : Buf (Elt F) ((c : Thread nD τ).loc b) := V b

set_option backward.isDefEq.respectTransparency.types false in
/-- One region as a segment between the contents V and V': an input array ends as entered, an output array as `hout` names it. -/
def reg {p : Fin 3} (lf : Pipeline.LaunchFacts (nD := nD) (τ := τ) cfgs p) (V V' : Dev nD → Valuation τ sig (Elt F))
    (hb : ∀ c, Pipeline.BodyObligationLoose (pdats m p c) defs₀ 𝒱₀ () Set.univ)
    (h0 : ∀ c t, (pdats m p c).owed t = 0) (hr : ∀ c, (pdats m p c).recorded 0 = Set.univ)
    (hq : ∀ c w, (pdats m p c).q w = fullShare)
    (hA : ∀ c w, (pdats m p c).A w = rd (V c) c (Pipeline.arrRef (cfgs p).spec w))
    (hΦ : ∀ c, (Pipeline.ΦA (cfgs p).spec c : sProp 𝕄) ⊢ (pdats m p c).Φ 0)
    (hΨ : ∀ c, (pdats m p c).Φ (Fin.last _) ⊢ (Pipeline.ΦA (cfgs p).spec c : sProp 𝕄))
    {O : List (Ref sig .tc)} (hof : ∀ c r, r ∉ O → rd (V' c) c r = rd (V c) c r)
    (hO : ∀ r ∈ O, r ∈ Finset.univ.image (Pipeline.arrRef (cfgs p).spec))
    (hio : ∀ w, ((cfgs p).win w).isOut = false → Pipeline.arrRef (cfgs p).spec w ∉ O)
    (hout : ∀ c w, ((cfgs p).win w).isOut = true → (pdats m p c).arrAt w (cfgs p).N = rd (V' c) c (Pipeline.arrRef (cfgs p).spec w)) :
    Pipeline.RegionSeg (pcfgs (F := F)) Gen.adm (pdats m) () defs₀ 𝒱₀ L lv p where
  win := lf.win.to₀
  block_pos := lf.block_pos
  stage_whole := lf.stage_whole
  K := PEmpty
  osem k := k.elim
  ho := Pipeline.OwnSemFacts.none _
  hbody := hb
  hwaits := Pipeline.hwaits_of_owed_zero _ _ _ _ L lv p h0
  pre c := iprop(StableHlo.held (c : Thread nD τ) (Pipeline.ucRefs τ sig) (V c) ∗ R c)
  post c := iprop(StableHlo.held (c : Thread nD τ) (Pipeline.ucRefs τ sig) (V' c) ∗ R c)
  X c := iprop(∃ r, prngReg c r)
  Y c := iprop(∃ r, prngReg c r)
  Z c := Pipeline.unscopedRest (cfgs p).spec c (rd (V c) c)
  hentry c := by
    rw [Pipeline.ownSems0_none]
    have hsplit := Pipeline.arrays_of_unscopedBufs (p := p) (pcfgs (F := F)) Gen.adm (pdats m) lf.win lf.arr_whole c
      ((pdats m p c).share_full (hq c)) (rd (V c) c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owesAt_intro (pdats m p c) 0 (h0 c 0) (hr c)); iexact HO
    isplitl [Hp]; · iexact Hp
    iexact Hrest
  hin c := by
    refine BIBase.Entails.trans ?_ (hΦ c)
    unfold Pipeline.ΦA
    iintro ⟨Hp, -, Hr⟩
    isplitl [Hr]; · iexact Hr
    iexact Hp
  hout c := by
    rw [Pipeline.ownSems0_none]
    refine BIBase.Entails.trans (hΨ c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) Gen.adm lf.win lf.arr_whole c (pdats m) ((pdats m p c).share_full (hq c))
      (rd (V c) c) (rd (V' c) c) ((pdats m p c).arrAt · (cfgs p).N)
      (fun w => by
        cases hw : ((cfgs p).win w).isOut
        · exact (((pdats m p c).arrAt_in w hw _).trans (hA c w)).trans (hof c _ (hio w hw)).symm
        · exact hout c w hw)
      fun b hb => hof c b fun h => hb (hO b h)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_elim (pdats m p c) _ (h0 c _)); iexact HO

def reg0 := reg m launch0 (Gen.V1 m) (Gen.V2 m (outs m)) (fun c => (Pool.body_obligation (E1 m) c).loose)
  (fun _ _ => rfl) (fun _ => rfl) (fun _ _ => rfl) (Pool.A_eq (E1 m)) (Pool.hin (E1 m)) (Pool.hout (E1 m)) (Gen.V2_of m (outs m)) (by decide) (by decide) fun c w hw => by
    rcases (by decide : ∀ w : Fin cfg0.W, (cfg0.win w).isOut = true → w = 2 ∨ w = 3) w hw with rfl | rfl
    exacts [(W2_arr m c 2).symm.trans (E2_v1_0 m c).symm, (W2_arr m c 3).symm.trans (E2_v1_1 m c).symm]
def reg1 := reg m launch1 (Gen.V3 m (outs m)) (Gen.V4 m (outs m)) (fun c => (Vn.body_obligation (E3 m) c).loose)
  (fun _ _ => rfl) (fun _ => rfl) (fun _ _ => rfl) (Vn.A_eq (E3 m)) (fun _ => .rfl) (fun _ => .rfl) (Gen.V4_of m (outs m)) (by decide) (by decide) fun c w hw => by
    obtain rfl := (by decide : ∀ w : Fin cfg1.W, (cfg1.win w).isOut = true → w = 9) w hw
    exact (W4_arr m c 9).symm.trans (E4_v25 m c).symm
def reg2 := reg m launch2 (Gen.V5 m (outs m)) (Gen.V6 m (outs m)) (fun c => (Node.body_obligation (E5 m) c).loose)
  (fun _ _ => rfl) (fun _ => rfl) (fun _ _ => rfl) (Node.A_eq (E5 m)) (fun _ => .rfl) (fun _ => .rfl) (Gen.V6_of m (outs m)) (by decide) (by decide) fun c w hw => by
    obtain rfl := (by decide : ∀ w : Fin cfg2.W, (cfg2.win w).isOut = true → w = 10) w hw
    exact (W6_arr m c 10).symm.trans (E6_v30 m c).symm

set_option backward.isDefEq.respectTransparency.types false in
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = Gen.V6 m (outs m) c b) := by
  refine Pipeline.θ_run_regions_kit_dev (pcfgs (F := F)) Gen.adm (pdats m) () cellOf_inj emb₁ defs₀ 𝒱₀ L lv m ρ main
    (Gen.segs m (outs m) 𝒱₀ L lv (fun _ c => R c) () (pdats m) (reg0 m) (reg1 m) (reg2 m))
    (fun c Q => by
      rewrite [main_chain c, Pipeline.Seg.run_eq_chain]
      exact .rfl)
    (fun c => by simp only [Gen.segs, Pipeline.Seg.pipes_host, Pipeline.Seg.pipes_region, Pipeline.Seg.pipes_nil]; decide)
    (0 : Dev nD → CellTallies nD τ sig Unit) (fun _ _ => rfl) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V6 m (outs m) c))
    (hch := fun c => ⟨.rfl, .rfl, .rfl, .rfl, .rfl, .rfl, sep_mono .rfl sep_elim_right⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V6 m (outs m) c b)
    (hfin := fun c s' => by
      iintro ⟨Hh, HSI⟩
      unfold StableHlo.held
      imodintro
      iapply (pointsTo_read_all (Pipeline.ucRefs τ sig) (fun b => (((c : Thread nD τ)).1, b)) (Gen.V6 m (outs m) c) s')
      isplitl [Hh] <;> iassumption)
    (hQ := fun _ h => h)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A buffer the run reads back whose last contents are the launch's ends as launched. -/
theorem kept {s : MemSt nD τ sig (Elt F)} {c : Dev nD} {b : Ref sig .tc}
    (h : ∀ b ∈ Pipeline.ucRefs τ sig, s.mem ((c : Thread nD τ).1, b) = Gen.V6 m (outs m) c b)
    (hV : Gen.V6 m (outs m) c b = m ((c : Thread nD τ).loc b)) (hb : ¬ (Proc.devRef .tc b : DevRef τ sig).isScoped := by decide) :
    s.mem ((c : Thread nD τ).loc b) = m ((c : Thread nD τ).loc b) :=
  (h _ (mem_uc b hb)).trans hV

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c =>
    ⟨kept m (h c) (Gen.V6_main_arg0 ..), kept m (h c) (Gen.V6_main_arg1 ..), kept m (h c) (Gen.V6_main_arg2 ..),
     kept m (h c) (Gen.V6_main_arg3 ..), kept m (h c) (Gen.V6_main_arg4 ..), kept m (h c) (Gen.V6_main_arg5 ..),
     kept m (h c) (Gen.V6_main_arg6 ..), kept m (h c) (Gen.V6_main_arg7 ..), kept m (h c) (Gen.V6_main_arg8 ..),
     kept m (h c) (Gen.V6_main_arg9 ..), kept m (h c) (Gen.V6_main_arg10 ..), kept m (h c) (Gen.V6_main_arg11 ..),
     kept m (h c) (Gen.V6_main_arg12 ..), kept m (h c) (Gen.V6_main_arg13 ..), kept m (h c) (Gen.V6_main_arg14 ..)⟩) (run_all m ρ)

theorem V6_v30 (c : Dev nD) : Gen.V6 m (outs m) c main_v30 = (Node.dat (E5 m) c).arrAt 10 cfg2.N :=
  (E6_v30 m c).trans (W6_arr m c 10)
theorem V6_v25 (c : Dev nD) : Gen.V6 m (outs m) c main_v25 = (Vn.dat (E3 m) c).arrAt 9 cfg1.N :=
  (Gen.V6_of m (outs m) c main_v25 (by decide)).trans ((Gen.V5_of m (outs m) c main_v25 (by decide)).trans ((E4_v25 m c).trans (W4_arr m c 9)))

end Cert.KernelIdeal.Launch

end
-- ==== Proof.Results.lean ====
import proofs.«419202_j25975962206499_3_alg».proof.Proof.Launch

set_option maxRecDepth 16384

noncomputable section

namespace Cert.KernelIdeal.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

theorem run_results (ρ : Dev nD → PrngReg) : θ_run defs (onTc (τ := τ) (main (F := F))) ⟨m, fun _ => 0, ρ⟩ (fun r => ∀ c : Dev nD,
      r.2.mem ((c.tc : Thread nD τ).loc main_v30) = Gen.V6 m (outs m) c main_v30
      ∧ r.2.mem ((c.tc : Thread nD τ).loc main_v25) = Gen.V6 m (outs m) c main_v25
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c =>
    ⟨h c _ (mem_uc main_v30 (by decide)), h c _ (mem_uc main_v25 (by decide)),
     kept m (h c) (Gen.V6_main_arg0 ..), kept m (h c) (Gen.V6_main_arg1 ..), kept m (h c) (Gen.V6_main_arg2 ..),
     kept m (h c) (Gen.V6_main_arg3 ..), kept m (h c) (Gen.V6_main_arg4 ..), kept m (h c) (Gen.V6_main_arg5 ..),
     kept m (h c) (Gen.V6_main_arg6 ..), kept m (h c) (Gen.V6_main_arg7 ..), kept m (h c) (Gen.V6_main_arg8 ..),
     kept m (h c) (Gen.V6_main_arg9 ..), kept m (h c) (Gen.V6_main_arg10 ..), kept m (h c) (Gen.V6_main_arg11 ..),
     kept m (h c) (Gen.V6_main_arg12 ..), kept m (h c) (Gen.V6_main_arg13 ..), kept m (h c) (Gen.V6_main_arg14 ..)⟩) (run_all m ρ)

end Cert.KernelIdeal.Launch

end
-- ==== Proof.HostValues.lean ====
import proofs.«419202_j25975962206499_3_alg».proof.Proof.Gen.KernelIdeal.Regions
import Idealize.ShloMosaic.Lib.StableHlo.Run
import Idealize.ShloMosaic.Lib.Pipeline.Value
import Idealize.ShloMosaic.Lib.ValueIdx
import Idealize.ShloMosaic.Lib.IdealHost

set_option maxRecDepth 16384

noncomputable section

namespace Cert.KernelIdeal.HostValues

open Idealize.ShloMosaic Idealize.ShloMosaic.TcCoe Idealize.SL.Sem Idealize.ShloMosaic.StableHlo
open Idealize.ShloMosaic.ValueIdx
open Cert.KernelIdeal Cert.KernelIdeal.Gen

variable {F : FTy → Type} [FloatOps F]

def asCol (b : Vec F S100000 .i32) : Vec F S100000x1 .i32 :=
  fun i => shapeCast S100000x1 b shapeCasts_S100000_S100000x1 i

def asRow (v : Vec F S512 .f32) : Vec F S1x512 .f32 :=
  fun i => shapeCast S1x512 v shapeCasts_S512_S1x512 i

def rowsLo (w : Vec F S1024x512 .f32) : Vec F S512x512 .f32 :=
  extractStridedSlice S512x512 ![0, 0] w slices_S1024x512_S512x512_0_0

def rowsHi (w : Vec F S1024x512 .f32) : Vec F S512x512 .f32 :=
  extractStridedSlice S512x512 ![512, 0] w slices_S1024x512_S512x512_512_0

def segSum (p : Vec F S2x128x512 .f32) : Vec F S128x512 .f32 :=
  addf (fun i => shapeCast S128x512 (extractStridedSlice S1x128x512 ![0, 0, 0] p slices_S2x128x512_S1x128x512_0_0_0) shapeCasts_S1x128x512_S128x512 i)
    (fun i => shapeCast S128x512 (extractStridedSlice S1x128x512 ![1, 0, 0] p slices_S2x128x512_S1x128x512_1_0_0) shapeCasts_S1x128x512_S128x512 i)

def counts (q : Vec F S2x1x128 .f32) : Vec F S128 .f32 :=
  addf (fun i => shapeCast S128 (extractStridedSlice S1x1x128 ![0, 0, 0] q slices_S2x1x128_S1x1x128_0_0_0) shapeCasts_S1x1x128_S128 i)
    (fun i => shapeCast S128 (extractStridedSlice S1x1x128 ![1, 0, 0] q slices_S2x1x128_S1x1x128_1_0_0) shapeCasts_S1x1x128_S128 i)

def clamped (q : Vec F S2x1x128 .f32) : Vec F S128 .f32 :=
  maximumf (counts q) (broadcastInDim S128 ![] bcast_S_S128 (constant (F := F) S_ .f32 0x3F800000#32))

def nodeMean (p : Vec F S2x128x512 .f32) (q : Vec F S2x1x128 .f32) : Vec F S128x512 .f32 :=
  Host.divf (segSum p)
    (broadcastInDim S128x512 ![0, 1] bcast_S128x1_S128x512_0_1 (broadcastInDim S128x1 ![0] bcast_S128_S128x1_0 (clamped q)))

section After
variable (W : Valuation τ sig (Elt F))

theorem v0_eq : (StableHlo.after (hostOps0 (F := F)) W main_v0 : Vec F S100000x1 .i32) = asCol (W main_arg14) := by after_results; rfl

theorem v16_eq : (StableHlo.after (hostOps1 (F := F)) W main_v16 : Vec F S128x512 .f32) = nodeMean (W main_v1_0) (W main_v1_1) := by after_results; rfl

theorem v17_eq : (StableHlo.after (hostOps1 (F := F)) W main_v17 : Vec F S512x512 .f32) = rowsLo (W main_arg2) := by after_results; rfl
theorem v18_eq : (StableHlo.after (hostOps1 (F := F)) W main_v18 : Vec F S512x512 .f32) = rowsHi (W main_arg2) := by after_results; rfl
theorem v19_eq : (StableHlo.after (hostOps1 (F := F)) W main_v19 : Vec F S512x512 .f32) = rowsLo (W main_arg8) := by after_results; rfl
theorem v20_eq : (StableHlo.after (hostOps1 (F := F)) W main_v20 : Vec F S512x512 .f32) = rowsHi (W main_arg8) := by after_results; rfl
theorem v21_eq : (StableHlo.after (hostOps1 (F := F)) W main_v21 : Vec F S1x512 .f32) = asRow (W main_arg3) := by after_results; rfl
theorem v22_eq : (StableHlo.after (hostOps1 (F := F)) W main_v22 : Vec F S1x512 .f32) = asRow (W main_arg5) := by after_results; rfl
theorem v23_eq : (StableHlo.after (hostOps1 (F := F)) W main_v23 : Vec F S1x512 .f32) = asRow (W main_arg6) := by after_results; rfl
theorem v24_eq : (StableHlo.after (hostOps1 (F := F)) W main_v24 : Vec F S1x512 .f32) = asRow (W main_arg7) := by after_results; rfl

theorem v26_eq : (StableHlo.after (hostOps2 (F := F)) W main_v26 : Vec F S1x512 .f32) = asRow (W main_arg9) := by after_results; rfl
theorem v27_eq : (StableHlo.after (hostOps2 (F := F)) W main_v27 : Vec F S1x512 .f32) = asRow (W main_arg11) := by after_results; rfl
theorem v28_eq : (StableHlo.after (hostOps2 (F := F)) W main_v28 : Vec F S1x512 .f32) = asRow (W main_arg12) := by after_results; rfl
theorem v29_eq : (StableHlo.after (hostOps2 (F := F)) W main_v29 : Vec F S1x512 .f32) = asRow (W main_arg13) := by after_results; rfl

end After

theorem asCol_apply (b : Vec F S100000 .i32) (i : Fin 100000) (u : Fin 1) : asCol b (ix2 i u) = b (ix1 i) := by
  have hu : u.val = 0 := by omega
  refine shapeCast_apply b shapeCasts_S100000_S100000x1 (ix2 i u) (ix1 i) ?_
  rw [Shape.rowMajor_val_one, Shape.rowMajor_val_two]
  show i.val = i.val * 1 + u.val
  omega

theorem asRow_apply (v : Vec F S512 .f32) (u : Fin 1) (h : Fin 512) : asRow v (ix2 u h) = v (ix1 h) := by
  have hu : u.val = 0 := by omega
  refine shapeCast_apply v shapeCasts_S512_S1x512 (ix2 u h) (ix1 h) ?_
  rw [Shape.rowMajor_val_one, Shape.rowMajor_val_two]
  show h.val = u.val * 512 + h.val
  omega

theorem rowsLo_apply (w : Vec F S1024x512 .f32) (k h : Fin 512) (k' : Fin 1024) (hk : k'.val = k.val) :
    rowsLo w (ix2 k h) = w (ix2 k' h) := by
  refine extractStridedSlice_apply ![0, 0] w slices_S1024x512_S512x512_0_0 (ix2 k h) (ix2 k' h) fun a => ?_
  match a with
  | ⟨0, _⟩ => show k'.val = 0 + k.val; omega
  | ⟨1, _⟩ => show h.val = 0 + h.val; omega

theorem rowsHi_apply (w : Vec F S1024x512 .f32) (k h : Fin 512) (k' : Fin 1024) (hk : k'.val = 512 + k.val) :
    rowsHi w (ix2 k h) = w (ix2 k' h) := by
  refine extractStridedSlice_apply ![512, 0] w slices_S1024x512_S512x512_512_0 (ix2 k h) (ix2 k' h) fun a => ?_
  match a with
  | ⟨0, _⟩ => show k'.val = 512 + k.val; omega
  | ⟨1, _⟩ => show h.val = 0 + h.val; omega

theorem rowsLo_apply' (w : Vec F S1024x512 .f32) (k h : Fin 512) :
    rowsLo w (ix2 k h) = w (ix2 (⟨k.val, by omega⟩ : Fin 1024) h) := rowsLo_apply w k h _ rfl

theorem rowsHi_apply' (w : Vec F S1024x512 .f32) (k h : Fin 512) :
    rowsHi w (ix2 k h) = w (ix2 (⟨512 + k.val, by omega⟩ : Fin 1024) h) := rowsHi_apply w k h _ rfl

theorem half_sum_apply (p : Vec F S2x128x512 .f32) (c : Fin 2) (off : Fin 3 → ℕ) (hoff : off = ![c.val, 0, 0])
    (hs : S2x128x512.Slices off S1x128x512) (j : Fin 128) (h : Fin 512) :
    shapeCast S128x512 (extractStridedSlice S1x128x512 off p hs) shapeCasts_S1x128x512_S128x512 (ix2 j h) = p (ix3 c j h) := by
  subst hoff
  refine (shapeCast_apply _ shapeCasts_S1x128x512_S128x512 (ix2 j h) (ix3 (0 : Fin 1) j h) ?_).trans ?_
  · rw [Shape.rowMajor_val_three, Shape.rowMajor_val_two]
    show ((0 : Fin 1).val * 128 + j.val) * 512 + h.val = j.val * 512 + h.val
    simp
  · refine extractStridedSlice_apply _ p hs (ix3 (0 : Fin 1) j h) (ix3 c j h) fun a => ?_
    match a with
    | ⟨0, _⟩ => show c.val = c.val + (0 : Fin 1).val; simp
    | ⟨1, _⟩ => show j.val = 0 + j.val; omega
    | ⟨2, _⟩ => show h.val = 0 + h.val; omega

theorem half_cnt_apply (q : Vec F S2x1x128 .f32) (c : Fin 2) (off : Fin 3 → ℕ) (hoff : off = ![c.val, 0, 0])
    (hs : S2x1x128.Slices off S1x1x128) (j : Fin 128) :
    shapeCast S128 (extractStridedSlice S1x1x128 off q hs) shapeCasts_S1x1x128_S128 (ix1 j) = q (ix3 c (0 : Fin 1) j) := by
  subst hoff
  refine (shapeCast_apply _ shapeCasts_S1x1x128_S128 (ix1 j) (ix3 (0 : Fin 1) (0 : Fin 1) j) ?_).trans ?_
  · rw [Shape.rowMajor_val_three, Shape.rowMajor_val_one]
    show ((0 : Fin 1).val * 1 + (0 : Fin 1).val) * 128 + j.val = j.val
    simp
  · refine extractStridedSlice_apply _ q hs (ix3 (0 : Fin 1) (0 : Fin 1) j) (ix3 c (0 : Fin 1) j) fun a => ?_
    match a with
    | ⟨0, _⟩ => show c.val = c.val + (0 : Fin 1).val; simp
    | ⟨1, _⟩ => show (0 : Fin 1).val = 0 + (0 : Fin 1).val; simp
    | ⟨2, _⟩ => show j.val = 0 + j.val; omega

-- The two halves' sums added, over the larger of the two halves' counts added and one: each stage read at its index.
theorem nodeMean_ideal (p : Vec Ideal S2x128x512 .f32) (q : Vec Ideal S2x1x128 .f32) (j : Fin 128) (h : Fin 512) :
    nodeMean p q (ix2 j h)
      = Ideal.div (p (ix3 (0 : Fin 2) j h) + p (ix3 (1 : Fin 2) j h))
          (max (q (ix3 (0 : Fin 2) (0 : Fin 1) j) + q (ix3 (1 : Fin 2) (0 : Fin 1) j)) 1) := by
  have hs : segSum p (ix2 j h) = p (ix3 (0 : Fin 2) j h) + p (ix3 (1 : Fin 2) j h) :=
    congrArg₂ (· + ·) (half_sum_apply p 0 _ rfl _ j h) (half_sum_apply p 1 _ rfl _ j h)
  have hc : clamped q (ix1 j) = max (q (ix3 (0 : Fin 2) (0 : Fin 1) j) + q (ix3 (1 : Fin 2) (0 : Fin 1) j)) 1 :=
    congrArg₂ max (congrArg₂ (· + ·) (half_cnt_apply q 0 _ rfl _ j) (half_cnt_apply q 1 _ rfl _ j)) Ideal.ofBits_one_f32
  show Ideal.div (segSum p (ix2 j h)) _ = _
  rw [hs, ← hc]
  refine congrArg (Ideal.div _) ((broadcastInDim_apply ![0, 1] bcast_S128x1_S128x512_0_1 _ (ix2 j h) (ix2 j (0 : Fin 1)) fun a => ?_).trans
    (broadcastInDim_apply ![0] bcast_S128_S128x1_0 _ (ix2 j (0 : Fin 1)) (ix1 j) fun a => ?_))
  · match a with
    | ⟨0, _⟩ => rfl
    | ⟨1, _⟩ => rfl
  · match a with
    | ⟨0, _⟩ => rfl

end Cert.KernelIdeal.HostValues

end
-- ==== Proof.HostAt.lean ====
import proofs.«419202_j25975962206499_3_alg».proof.Proof.HostValues

set_option maxRecDepth 16384

noncomputable section

namespace Cert.KernelIdeal.HostValues

open Idealize.ShloMosaic Idealize.ShloMosaic.TcCoe Idealize.SL.Sem Idealize.ShloMosaic.StableHlo
open Idealize.ShloMosaic.ValueIdx
open Cert.KernelIdeal Cert.KernelIdeal.Gen

variable {F : FTy → Type} [FloatOps F]

section AtProgram
variable (m : (ℓ : Loc nD τ sig) → Buf (Elt F) ℓ) (outs : Outs (F := F)) (c : Dev nD)

theorem V2_launch (r : Ref sig .tc) (h1 : r ∉ ([main_v1_0, main_v1_1] : List (Ref sig .tc)) := by decide) (h0 : r ∉ hostOps0_W := by decide) :
    V2 m outs c r = V0 m c r :=
  (V2_of m outs c r h1).trans (V1_of m c r h0)

theorem V4_launch (r : Ref sig .tc) (h3 : r ∉ ([main_v25] : List (Ref sig .tc)) := by decide) (h2 : r ∉ hostOps1_W := by decide)
    (h1 : r ∉ ([main_v1_0, main_v1_1] : List (Ref sig .tc)) := by decide) (h0 : r ∉ hostOps0_W := by decide) :
    V4 m outs c r = V0 m c r :=
  (V4_of m outs c r h3).trans ((V3_of m outs c r h2).trans (V2_launch m outs c r h1 h0))

theorem V2_v1_0 : V2 m outs c main_v1_0 = outs 2 main_v1_0 c := by
  unfold V2
  rw [Function.update_of_ne (StableHlo.devRef_ne_of_ne (by decide)), Function.update_self]
theorem V2_v1_1 : V2 m outs c main_v1_1 = outs 2 main_v1_1 c := by
  unfold V2
  rw [Function.update_self]

theorem V1_v0 : (V1 m c main_v0 : Vec F S100000x1 .i32) = asCol (m ((c : Thread nD τ).loc main_arg14)) :=
  v0_eq (V0 m c)
theorem V1_arg0 : V1 m c main_arg0 = m ((c : Thread nD τ).loc main_arg0) := V1_of m c main_arg0 (by decide)

theorem V3_v16 : (V3 m outs c main_v16 : Vec F S128x512 .f32) = nodeMean (outs 2 main_v1_0 c) (outs 2 main_v1_1 c) := by
  rw [← V2_v1_0 m outs c, ← V2_v1_1 m outs c]
  exact v16_eq (V2 m outs c)
theorem V3_arg1 : V3 m outs c main_arg1 = m ((c : Thread nD τ).loc main_arg1) :=
  (V3_of m outs c main_arg1 (by decide)).trans (V2_launch m outs c main_arg1)
theorem V3_arg4 : V3 m outs c main_arg4 = m ((c : Thread nD τ).loc main_arg4) :=
  (V3_of m outs c main_arg4 (by decide)).trans (V2_launch m outs c main_arg4)
theorem V3_v17 : (V3 m outs c main_v17 : Vec F S512x512 .f32) = rowsLo (m ((c : Thread nD τ).loc main_arg2)) :=
  (v17_eq (V2 m outs c)).trans (congrArg rowsLo (V2_launch m outs c main_arg2))
theorem V3_v18 : (V3 m outs c main_v18 : Vec F S512x512 .f32) = rowsHi (m ((c : Thread nD τ).loc main_arg2)) :=
  (v18_eq (V2 m outs c)).trans (congrArg rowsHi (V2_launch m outs c main_arg2))
theorem V3_v21 : (V3 m outs c main_v21 : Vec F S1x512 .f32) = asRow (m ((c : Thread nD τ).loc main_arg3)) :=
  (v21_eq (V2 m outs c)).trans (congrArg asRow (V2_launch m outs c main_arg3))
theorem V3_v22 : (V3 m outs c main_v22 : Vec F S1x512 .f32) = asRow (m ((c : Thread nD τ).loc main_arg5)) :=
  (v22_eq (V2 m outs c)).trans (congrArg asRow (V2_launch m outs c main_arg5))
theorem V3_v23 : (V3 m outs c main_v23 : Vec F S1x512 .f32) = asRow (m ((c : Thread nD τ).loc main_arg6)) :=
  (v23_eq (V2 m outs c)).trans (congrArg asRow (V2_launch m outs c main_arg6))
theorem V3_v24 : (V3 m outs c main_v24 : Vec F S1x512 .f32) = asRow (m ((c : Thread nD τ).loc main_arg7)) :=
  (v24_eq (V2 m outs c)).trans (congrArg asRow (V2_launch m outs c main_arg7))

theorem V5_arg0 : V5 m outs c main_arg0 = m ((c : Thread nD τ).loc main_arg0) :=
  (V5_of m outs c main_arg0 (by decide)).trans (V4_launch m outs c main_arg0)
theorem V5_arg10 : V5 m outs c main_arg10 = m ((c : Thread nD τ).loc main_arg10) :=
  (V5_of m outs c main_arg10 (by decide)).trans (V4_launch m outs c main_arg10)
theorem V5_v0 : (V5 m outs c main_v0 : Vec F S100000x1 .i32) = asCol (m ((c : Thread nD τ).loc main_arg14)) :=
  (V5_of m outs c main_v0 (by decide)).trans ((V4_of m outs c main_v0 (by decide)).trans ((V3_of m outs c main_v0 (by decide)).trans
    ((V2_of m outs c main_v0 (by decide)).trans (V1_v0 m c))))
theorem V5_v25 : V5 m outs c main_v25 = outs 4 main_v25 c := by
  refine (V5_of m outs c main_v25 (by decide)).trans ?_
  unfold V4
  rw [Function.update_self]
theorem V5_v19 : (V5 m outs c main_v19 : Vec F S512x512 .f32) = rowsLo (m ((c : Thread nD τ).loc main_arg8)) :=
  (V5_of m outs c main_v19 (by decide)).trans ((V4_of m outs c main_v19 (by decide)).trans
    ((v19_eq (V2 m outs c)).trans (congrArg rowsLo (V2_launch m outs c main_arg8))))
theorem V5_v20 : (V5 m outs c main_v20 : Vec F S512x512 .f32) = rowsHi (m ((c : Thread nD τ).loc main_arg8)) :=
  (V5_of m outs c main_v20 (by decide)).trans ((V4_of m outs c main_v20 (by decide)).trans
    ((v20_eq (V2 m outs c)).trans (congrArg rowsHi (V2_launch m outs c main_arg8))))
theorem V5_v26 : (V5 m outs c main_v26 : Vec F S1x512 .f32) = asRow (m ((c : Thread nD τ).loc main_arg9)) :=
  (v26_eq (V4 m outs c)).trans (congrArg asRow (V4_launch m outs c main_arg9))
theorem V5_v27 : (V5 m outs c main_v27 : Vec F S1x512 .f32) = asRow (m ((c : Thread nD τ).loc main_arg11)) :=
  (v27_eq (V4 m outs c)).trans (congrArg asRow (V4_launch m outs c main_arg11))
theorem V5_v28 : (V5 m outs c main_v28 : Vec F S1x512 .f32) = asRow (m ((c : Thread nD τ).loc main_arg12)) :=
  (v28_eq (V4 m outs c)).trans (congrArg asRow (V4_launch m outs c main_arg12))
theorem V5_v29 : (V5 m outs c main_v29 : Vec F S1x512 .f32) = asRow (m ((c : Thread nD τ).loc main_arg13)) :=
  (v29_eq (V4 m outs c)).trans (congrArg asRow (V4_launch m outs c main_arg13))

end AtProgram

end Cert.KernelIdeal.HostValues

end
-- ==== Proof.VnValue.lean ====
import proofs.«419202_j25975962206499_3_alg».proof.Proof.VnBody
import Idealize.ShloMosaic.Lib.Pipeline.Value
import Idealize.ShloMosaic.Lib.ValueIdx

noncomputable section

namespace Cert.KernelIdeal.Vn

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable {F : FTy → Type} [FloatOps F]
variable (V : (c : Dev nD) → (b : Ref sig .tc) → Buf (Elt F) ((c : Thread nD τ).loc b))

-- The rectangle at zero offsets of the array's own sizes is the whole shape, which places every index at itself.
theorem read_unit_zero (b : Ref sig .tc) {off : Fin b.ty.shape.rank → Nat} (h : off = fun _ => 0)
    (inb : ∀ a, off a + b.ty.shape.size a ≤ b.ty.shape.size a) (X : b.ty.Contents (Elt F)) :
    ((View.whole b).slice (Rect.unit off b.ty.shape.size inb)).read (Elt F) X = X := by
  subst h; exact funext fun x => congrArg X (Rect.emb_whole_apply _ x)

-- Decided by evaluating every index map at the grid's one point.
theorem idx_zero : ∀ (t : Fin cfg1.N) (w : Fin cfg1.W) (a : Fin (cfg1.win w).shape.rank), (cfg1.win w).index t a = 0 := by
  decide +kernel

theorem off_zero (w : Fin cfg1.W) (t : Fin cfg1.N) :
    (fun a => (cfg1.win w).index t a * (cfg1.win w).size a) = fun _ => 0 :=
  funext fun a => by rw [idx_zero, Nat.zero_mul]

variable (c : Dev nD) (t : Fin cfg1.N)

theorem iblk_0 : iblk V c 0 t = V c main_v16 := read_unit_zero _ (off_zero 0 t) _ _
theorem iblk_1 : iblk V c 1 t = V c main_arg1 := read_unit_zero _ (off_zero 1 t) _ _
theorem iblk_2 : iblk V c 2 t = V c main_v17 := read_unit_zero _ (off_zero 2 t) _ _
theorem iblk_3 : iblk V c 3 t = V c main_v18 := read_unit_zero _ (off_zero 3 t) _ _
theorem iblk_4 : iblk V c 4 t = V c main_v21 := read_unit_zero _ (off_zero 4 t) _ _
theorem iblk_5 : iblk V c 5 t = V c main_arg4 := read_unit_zero _ (off_zero 5 t) _ _
theorem iblk_6 : iblk V c 6 t = V c main_v22 := read_unit_zero _ (off_zero 6 t) _ _
theorem iblk_7 : iblk V c 7 t = V c main_v23 := read_unit_zero _ (off_zero 7 t) _ _
theorem iblk_8 : iblk V c 8 t = V c main_v24 := read_unit_zero _ (off_zero 8 t) _ _

abbrev G : Vec F S128x512 .f32 :=
  Hand.vnBlock (V c main_v16) (V c main_arg1) (V c main_v17) (V c main_v18) (V c main_v21) (V c main_arg4)
    (V c main_v22) (V c main_v23) (V c main_v24)

theorem mem_blk_9 (i : S128x512.Idx) : i ∈ ((cfg1.win 9).blk t).view.set := by
  show i ∈ ((View.whole main_v25).slice ((cfg1.win 9).rect t)).set
  rw [View.set_slice_whole]; exact View.mem_set_unit_zero (off_zero 9 t) _ i

-- Every input block is its whole array and the output block covers the output array, so the array ends as the block function of the input arrays.
theorem vn_array : ((dat V c).arrAt 9 cfg1.N : S128x512.Idx → Elt F .f32) = G V c :=
  (dat V c).arrAt_eq_of_cover 9 (G V c)
    (fun t _ => by
      show (cfg1.win 9).cut (grid1.coords t) ((dat V c).after 9 t) = _
      rw [after_out, out_eq, iblk_0, iblk_1, iblk_2, iblk_3, iblk_4, iblk_5, iblk_6, iblk_7, iblk_8]
      exact (read_unit_zero main_v25 (off_zero 9 t) _ _).symm)
    fun i => ⟨⟨0, lt_of_lt_of_eq Nat.one_pos N_1.symm⟩, flush1_9 _, mem_blk_9 _ i⟩

end Cert.KernelIdeal.Vn

end
-- ==== Proof.LibDotPlain.lean ====
import Idealize.ShloMosaic.Lib.StackMember

namespace Cert.LibDot

open Idealize.ShloMosaic Idealize.ShloMosaic.ValueIdx

variable (M K N : Nat)

/-- Into a zero accumulator a block product is the plain matrix product: entry (i, j) is Σₖ l(i, k) · r(k, j). -/
theorem mm_plain {φ₁ φ₂ : FTy} (l : FVec Ideal ⟨2, ![M, K]⟩ φ₁) (r : FVec Ideal ⟨2, ![K, N]⟩ φ₂)
    (i : Fin M) (j : Fin N) :
    matmul (DotDims.plain M K N) none l r (constant (F := Ideal) ⟨2, ![M, N]⟩ .f32 0x00000000#32) (ix2 i j)
      = ∑ k : Fin K, l (ix2 i k) * r (ix2 k j) :=
  (congrFun (matmul_zero_eq_dotGeneral _ none l r) _).trans (StackMember.dotGeneral_plain_apply none l r i j)

end Cert.LibDot
-- ==== Proof.LibColumn.lean ====
import Idealize.ShloMosaic.Lib.Pipeline.Value
import Idealize.ShloMosaic.Lib.ValueIdx

namespace Cert.LibColumn

open Idealize.ShloMosaic Idealize.ShloMosaic.ValueIdx

variable {α : Type} {a b : ℕ}

/-- A vector viewed as a column keeps its entries: `(i, 0)` is entry `i` in row-major order. -/
theorem shapeCast_a_a1_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    rw [Shape.rowMajor_val_two, Shape.rowMajor_val_one]
    show i.val = i.val * 1 + u.val
    omega)

/-- A column repeated along the columns keeps the row and forgets the column. -/
theorem broadcastTo_a1_ab_apply (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split <;> omega
  | ⟨1, _⟩ => rfl

end Cert.LibColumn
-- ==== Proof.LibRow.lean ====
import Idealize.ShloMosaic.Lib.Pipeline.Value
import Idealize.ShloMosaic.Lib.ValueIdx
import Mathlib.Algebra.BigOperators.Fin
import Idealize.ShloMosaic.PureOps.Ideal.Laws

noncomputable section

namespace Cert.LibRow

open Idealize.ShloMosaic Idealize.ShloMosaic.ValueIdx

/-- A sum over a row of 1024 is the sum over its first 512 columns plus the sum over its last 512. -/
theorem sum_halves {M : Type} [AddCommMonoid M] (f : Fin 1024 → M) :
    ∑ k, f k = (∑ k : Fin 512, f ⟨k.val, by omega⟩) + ∑ k : Fin 512, f ⟨512 + k.val, by omega⟩ :=
  Fin.sum_univ_add (a := 512) (b := 512) f

variable {α : Type} {n : ℕ} (x₁ x₂ : (⟨2, ![n, 512]⟩ : Shape).Idx → α)
  (h : Shape.Concatenates [⟨2, ![n, 512]⟩, ⟨2, ![n, 512]⟩] ⟨2, ![n, 1024]⟩ 1)

/-- Two blocks of 512 columns side by side: column j of a joined row is the first block's, column 512 + j the second's. -/
theorem cat_first (e : Fin n) (j : Fin 512) :
    concatenate ⟨2, ![n, 1024]⟩ 1 [⟨⟨2, ![n, 512]⟩, x₁⟩, ⟨⟨2, ![n, 512]⟩, x₂⟩] h (ix2 e (⟨j.val, by omega⟩ : Fin 1024)) = x₁ (ix2 e j) :=
  concatenate_pair_apply_left 1 x₁ x₂ h _ rfl (ix2 e j) fun | ⟨0, _⟩ => rfl | ⟨1, _⟩ => rfl

theorem cat_second (e : Fin n) (j : Fin 512) :
    concatenate ⟨2, ![n, 1024]⟩ 1 [⟨⟨2, ![n, 512]⟩, x₁⟩, ⟨⟨2, ![n, 512]⟩, x₂⟩] h (ix2 e (⟨512 + j.val, by omega⟩ : Fin 1024)) = x₂ (ix2 e j) :=
  concatenate_pair_apply_right 1 x₁ x₂ h _ rfl rfl (ix2 e j)
    (fun | ⟨0, _⟩, _ => rfl | ⟨1, _⟩, hb => absurd rfl hb) (Nat.add_comm _ _)

theorem rsqrt_apply {s : Shape} {φ : FTy} (a : FVec Ideal s φ) (i : s.Idx) : rsqrt a i = Ideal.rsqrt (a i) := rfl
theorem logistic_apply {s : Shape} {φ : FTy} (a : FVec Ideal s φ) (i : s.Idx) :
    logistic a i = Ideal.div 1 (1 + Ideal.exp (-(a i))) := rfl

/-- The sum over a row's 512 entries. -/
theorem rowSum_apply {a : ℕ} (src : FVec Ideal ⟨2, ![a, 512]⟩ .f32) (h : (⟨2, ![a, 512]⟩ : Shape).Reduces [1] ⟨1, ![a]⟩)
    (hφ : FKind.Formats .f32) (hacc : (0x00000000#32 : BitVec FTy.f32.bits) = FKind.add.neutral .f32 hφ) (r : Fin a) :
    multiReduction .add [1] ⟨1, ![a]⟩ src 0x00000000#32 h hφ hacc (ix1 r) = ∑ k : Fin 512, src (ix2 r k) :=
  (Ideal.multiReduction_add_single src 0x00000000#32 h hφ hacc (ix1 r)).trans
    (Finset.sum_congr rfl fun k _ => congrArg src (eq_ix2 _))

/-- The first layer at position k: one row against the first 512 weight rows, another against the last 512, and the bias. -/
def rowPre (xr vr : Fin 512 → EReal) (wa wb : Fin 512 → Fin 512 → EReal) (b3 : Fin 512 → EReal) (k : Fin 512) : EReal :=
  ((∑ j : Fin 512, xr j * wa j k) + ∑ j : Fin 512, vr j * wb j k) + b3 k

def silu (z : EReal) : EReal := z * Ideal.div 1 (1 + Ideal.exp (-z))

/-- The residual update of a row at column h: the residual plus the second layer of the activated first layer. -/
def rowUpd (res xr vr : Fin 512 → EReal) (wa wb : Fin 512 → Fin 512 → EReal) (b3 : Fin 512 → EReal)
    (w4 : Fin 512 → Fin 512 → EReal) (b4 : Fin 512 → EReal) (h : Fin 512) : EReal :=
  res h + ((∑ k : Fin 512, silu (rowPre xr vr wa wb b3 k) * w4 k h) + b4 h)

def rowMean (y : Fin 512 → EReal) (c : EReal) : EReal := Ideal.div (∑ k : Fin 512, y k) c

def rowSqdev (y : Fin 512 → EReal) (c : EReal) : EReal := ∑ k : Fin 512, (y k - rowMean y c) * (y k - rowMean y c)

/-- The layer norm of a row at column h, with count c, gain g and shift be. -/
def rowLN (y g be : Fin 512 → EReal) (c eps : EReal) (h : Fin 512) : EReal :=
  ((y h - rowMean y c) * Ideal.rsqrt (Ideal.div (rowSqdev y c) c + eps)) * g h + be h

end Cert.LibRow

end
-- ==== Proof.VnBridge.lean ====
import proofs.«419202_j25975962206499_3_alg».proof.Proof.Blocks
import proofs.«419202_j25975962206499_3_alg».proof.Proof.Gen.ReferenceIdeal.Read
import proofs.«419202_j25975962206499_3_alg».proof.Proof.LibDotPlain
import proofs.«419202_j25975962206499_3_alg».proof.Proof.LibColumn
import proofs.«419202_j25975962206499_3_alg».proof.Proof.LibRow
import Idealize.ShloMosaic.Lib.ValueLayout
import Idealize.ShloMosaic.Lib.IdealHost

noncomputable section

namespace Cert.KernelIdeal.VnKernel

open Idealize.ShloMosaic Idealize.ShloMosaic.ValueIdx Cert.KernelIdeal Cert.KernelIdeal.Gen Cert.LibRow Cert.LibColumn

variable (nm vn : Vec Ideal S128x512 .f32) (w1a w1b : Vec Ideal S512x512 .f32) (b1 : Vec Ideal S1x512 .f32)
  (w2 : Vec Ideal S512x512 .f32) (b2 g be : Vec Ideal S1x512 .f32)

/-- Row r of the updated virtual nodes: the residual is the virtual node, the first layer takes the pooled row then the virtual node. -/
def updK (r : Fin 128) : Fin 512 → EReal :=
  rowUpd (fun h => vn (ix2 r h)) (fun q => nm (ix2 r q)) (fun q => vn (ix2 r q)) (fun a k => w1a (ix2 a k))
    (fun a k => w1b (ix2 a k)) (fun k => b1 (ix2 (0 : Fin 1) k)) (fun a k => w2 (ix2 a k)) (fun k => b2 (ix2 (0 : Fin 1) k))

theorem pay2_apply (r : Fin 128) (h : Fin 512) :
    k1_pay2 nm vn w1a w1b b1 w2 b2 (ix2 r h) = updK nm vn w1a w1b b1 w2 b2 r h := by
  unfold k1_pay2
  rw [show dot_S128x512_S512x512_S128x512_1_0_0_1_n_n = DotDims.plain 128 512 512 from rfl]
  simp only [shapeCast_self, addf_apply, mulf_apply, truncf_apply, logistic_apply, Cert.LibDot.mm_plain, broadcastTo_1b_ab_apply]
  rfl

theorem pay3_apply (r : Fin 128) :
    k1_pay3 nm vn w1a w1b b1 w2 b2 (ix2 r (0 : Fin 1)) = rowMean (updK nm vn w1a w1b b1 w2 b2 r) (Ideal.ofBits .f32 0x44000000#32) := by
  unfold k1_pay3
  simp only [divf_apply, broadcast_apply, shapeCast_a_a1_apply]
  unfold rowMean
  refine congrArg (fun z => Ideal.div z _) ((rowSum_apply _ _ _ _ r).trans ?_)
  simp only [pay2_apply]

theorem pay4_apply (r : Fin 128) :
    k1_pay4 nm vn w1a w1b b1 w2 b2 (ix2 r (0 : Fin 1)) = rowSqdev (updK nm vn w1a w1b b1 w2 b2 r) (Ideal.ofBits .f32 0x44000000#32) := by
  unfold k1_pay4
  simp only [shapeCast_a_a1_apply]
  unfold rowSqdev
  refine (rowSum_apply _ _ _ _ r).trans ?_
  simp only [mulf_apply, subf_apply, broadcastTo_a1_ab_apply, pay2_apply, pay3_apply]

/-- The block at `(r, h)` is the layer norm of the updated virtual nodes. -/
theorem block_apply (r : Fin 128) (h : Fin 512) :
    k1_pay1 (k1_pay2 nm vn w1a w1b b1 w2 b2) (k1_pay3 nm vn w1a w1b b1 w2 b2) (k1_pay4 nm vn w1a w1b b1 w2 b2)
        (Scalar.ofBits .f32 0x44000000#32) g be (ix2 r h)
      = rowLN (updK nm vn w1a w1b b1 w2 b2 r) (fun h => g (ix2 (0 : Fin 1) h)) (fun h => be (ix2 (0 : Fin 1) h))
          (Ideal.ofBits .f32 0x44000000#32) (Ideal.ofBits .f32 0x3727C5AC#32) h := by
  unfold k1_pay1
  simp only [shapeCast_self, addf_apply, mulf_apply, subf_apply, divf_apply, rsqrt_apply, broadcast_apply,
    broadcastTo_a1_ab_apply, broadcastTo_1b_ab_apply, pay2_apply, pay3_apply, pay4_apply]
  rfl

end Cert.KernelIdeal.VnKernel

namespace Cert.ReferenceIdeal.VnRef

open Idealize.ShloMosaic Idealize.ShloMosaic.ValueIdx Cert.ReferenceIdeal Cert.ReferenceIdeal.Read Cert.LibRow

abbrev RArr (s : Shape) (e : EltTy) : Type := (⟨s, e⟩ : BufTy).Contents (Elt Ideal)

variable (x0 : RArr S100000x512 .f32) (x1 : RArr S128x512 .f32) (x2 : RArr S1024x512 .f32) (x3 : RArr S512 .f32)
  (x4 : RArr S512x512 .f32) (x5 x6 x7 : RArr S512 .f32) (x14 : RArr S100000 .i32)

/-- Row r as the reference updates it: the joined row against the first weight matrix, split at column 512. -/
def updR (r : Fin 128) : Fin 512 → EReal :=
  rowUpd (fun h => x1 (ix2 r h)) (fun q => val_main_v11 (F := Ideal) x0 x14 (ix2 r q)) (fun q => x1 (ix2 r q))
    (fun a k => x2 (ix2 (⟨a.val, by omega⟩ : Fin 1024) k)) (fun a k => x2 (ix2 (⟨512 + a.val, by omega⟩ : Fin 1024) k))
    (fun k => x3 (ix1 k)) (fun a k => x4 (ix2 a k)) (fun k => x5 (ix1 k))

/-- The reference's residual update: a 1024-term first layer is the sum of its halves; the activation is z · logistic z. -/
theorem v22_apply (r : Fin 128) (h : Fin 512) :
    val_main_v22 (F := Ideal) x0 x1 x2 x3 x4 x5 x14 (ix2 r h) = updR x0 x1 x2 x3 x4 x5 x14 r h := by
  have e1 : ∀ k : Fin 512, lidx_main_v18 (ix2 r h) k = ix2 r k := fun k => eq_ix2 _
  have e2 : ∀ k : Fin 512, ridx_main_v18 (ix2 r h) k = ix2 k h := fun k => eq_ix2 _
  have e3 : idx_main_v19 (idx_main_v20 (ix2 r h)) = ix1 h := eq_ix1 _
  have e1' : ∀ (k : Fin 512) (q : Fin 1024), lidx_main_v13 (ix2 r k) q = ix2 r q := fun k q => eq_ix2 _
  have e2' : ∀ (k : Fin 512) (q : Fin 1024), ridx_main_v13 (ix2 r k) q = ix2 q k := fun k q => eq_ix2 _
  have e3' : ∀ k : Fin 512, idx_main_v14 (idx_main_v15 (ix2 r k)) = ix1 k := fun k => eq_ix1 _
  rw [val_main_v22_apply, val_main_v21_apply, val_main_v18_apply, val_main_v20_apply, val_main_v19_apply]
  simp only [e1, e2, e3, val_main_v17_apply, val_main_call0_v5_apply, val_main_call0_v4_apply, val_main_call0_cst_0_apply,
    val_main_call0_v3_apply, val_main_call0_v2_apply, val_main_call0_cst_apply, val_main_call0_v1_apply,
    val_main_call0_v0_apply, val_main_v16_apply, val_main_v13_apply, val_main_v15_apply, val_main_v14_apply, e1', e2', e3',
    sum_halves]
  unfold val_main_v12
  simp only [cat_first, cat_second, Ideal.mulf_def, Ideal.hostDivf_def, Ideal.addf_def, Ideal.hostUnary_exp_def,
    Ideal.hostNegf_def, Ideal.negf_def, Ideal.ofBits_def, Ideal.ofBits_one_f32]
  rfl

theorem v26_apply (r : Fin 128) :
    val_main_v26 (F := Ideal) x0 x1 x2 x3 x4 x5 x14 (ix2 r (0 : Fin 1)) = rowMean (updR x0 x1 x2 x3 x4 x5 x14 r) (Ideal.ofBits .f32 0x44000000#32) := by
  have e1 : ∀ k : Fin 512, idx_main_v23 (idx_main_v24 (ix2 r (0 : Fin 1))) k = ix2 r k := fun k => eq_ix2 _
  rw [val_main_v26_apply, val_main_v24_apply, val_main_v23_apply, val_main_v25_apply, val_main_cst_4_apply,
    val_main_cst_3_apply]
  simp only [e1, v22_apply]
  show Ideal.div (Ideal.ofBits .f32 0x00000000#32 + _) _ = _
  rw [Ideal.ofBits_zero_f32, zero_add]
  rfl

theorem v30_apply (r : Fin 128) :
    val_main_v30 (F := Ideal) x0 x1 x2 x3 x4 x5 x14 (ix1 r) = rowSqdev (updR x0 x1 x2 x3 x4 x5 x14 r) (Ideal.ofBits .f32 0x44000000#32) := by
  have e1 : ∀ k : Fin 512, idx_main_v30 (ix1 r) k = ix2 r k := fun k => eq_ix2 _
  have e2 : ∀ k : Fin 512, idx_main_v27 (ix2 r k) = ix2 r (0 : Fin 1) := fun k => eq_ix2 _
  rw [val_main_v30_apply, val_main_cst_5_apply]
  simp only [e1, val_main_v29_apply, val_main_v28_apply, val_main_v27_apply, e2, v22_apply, v26_apply]
  show Ideal.ofBits .f32 0x00000000#32 + _ = _
  rw [Ideal.ofBits_zero_f32, zero_add]
  rfl

/-- The reference's updated virtual nodes at `(r, h)`: the layer norm of the updated rows. -/
theorem v46_apply (r : Fin 128) (h : Fin 512) :
    val_main_v46 (F := Ideal) x0 x1 x2 x3 x4 x5 x6 x7 x14 (ix2 r h)
      = rowLN (updR x0 x1 x2 x3 x4 x5 x14 r) (fun h => x6 (ix1 h)) (fun h => x7 (ix1 h)) (Ideal.ofBits .f32 0x44000000#32) (Ideal.ofBits .f32 0x3727C5AC#32) h := by
  have e34 : idx_main_v34 (ix2 r h) = ix2 r (0 : Fin 1) := eq_ix2 _
  have e39 : idx_main_v39 (ix2 r h) = ix2 r (0 : Fin 1) := eq_ix2 _
  have e31 : idx_main_v31 (ix2 r (0 : Fin 1)) = ix1 r := eq_ix1 _
  have e42 : idx_main_v41 (idx_main_v42 (ix2 r h)) = ix1 h := eq_ix1 _
  have e45 : idx_main_v44 (idx_main_v45 (ix2 r h)) = ix1 h := eq_ix1 _
  rw [val_main_v46_apply, val_main_v43_apply, val_main_v40_apply, val_main_v35_apply, val_main_v34_apply,
    val_main_v39_apply, val_main_v38_apply, val_main_v37_apply, val_main_v33_apply, val_main_v31_apply,
    val_main_v32_apply, val_main_cst_6_apply, val_main_v36_apply, val_main_cst_7_apply, val_main_v42_apply,
    val_main_v41_apply, val_main_v45_apply, val_main_v44_apply]
  rw [e34, e39, e31, e42, e45, v22_apply, v26_apply, v30_apply]
  rfl

end Cert.ReferenceIdeal.VnRef

namespace Cert.VnBridge

open Idealize.ShloMosaic Idealize.ShloMosaic.ValueIdx Cert.KernelIdeal.VnKernel Cert.ReferenceIdeal.VnRef

/-- The block and the reference are the same layer norm; their first layers differ as a 1024-term sum from its two halves. -/
theorem vn_bridge
    (nm vn : Vec Ideal Cert.KernelIdeal.S128x512 .f32) (w1a w1b w2 : Vec Ideal Cert.KernelIdeal.S512x512 .f32)
    (b1 b2 g be : Vec Ideal Cert.KernelIdeal.S1x512 .f32)
    (x0 : (⟨Cert.ReferenceIdeal.S100000x512, .f32⟩ : BufTy).Contents (Elt Ideal)) (x1 : (⟨Cert.ReferenceIdeal.S128x512, .f32⟩ : BufTy).Contents (Elt Ideal))
    (x2 : (⟨Cert.ReferenceIdeal.S1024x512, .f32⟩ : BufTy).Contents (Elt Ideal)) (x3 : (⟨Cert.ReferenceIdeal.S512, .f32⟩ : BufTy).Contents (Elt Ideal))
    (x4 : (⟨Cert.ReferenceIdeal.S512x512, .f32⟩ : BufTy).Contents (Elt Ideal)) (x5 x6 x7 : (⟨Cert.ReferenceIdeal.S512, .f32⟩ : BufTy).Contents (Elt Ideal))
    (x14 : (⟨Cert.ReferenceIdeal.S100000, .i32⟩ : BufTy).Contents (Elt Ideal))
    (hnm : nm = Cert.ReferenceIdeal.Read.val_main_v11 (F := Ideal) x0 x14) (hvn : vn = x1)
    (hw1a : ∀ k h : Fin 512, w1a (ix2 k h) = x2 (ix2 (⟨k.val, Nat.lt_of_lt_of_le k.isLt (by decide)⟩ : Fin 1024) h))
    (hw1b : ∀ k h : Fin 512, w1b (ix2 k h) = x2 (ix2 (⟨512 + k.val, Nat.add_lt_add_left k.isLt 512⟩ : Fin 1024) h))
    (hw2 : w2 = x4)
    (hb1 : ∀ h : Fin 512, b1 (ix2 (0 : Fin 1) h) = x3 (ix1 h))
    (hb2 : ∀ h : Fin 512, b2 (ix2 (0 : Fin 1) h) = x5 (ix1 h))
    (hg : ∀ h : Fin 512, g (ix2 (0 : Fin 1) h) = x6 (ix1 h))
    (hbe : ∀ h : Fin 512, be (ix2 (0 : Fin 1) h) = x7 (ix1 h)) :
    Cert.KernelIdeal.Hand.vnBlock nm vn w1a w1b b1 w2 b2 g be
      = Cert.ReferenceIdeal.Read.val_main_v46 (F := Ideal) x0 x1 x2 x3 x4 x5 x6 x7 x14 := by
  subst hnm hvn hw2
  funext j
  obtain ⟨r, h, rfl⟩ : ∃ (r : Fin 128) (h : Fin 512), j = ix2 r h := ⟨j 0, j 1, eq_ix2 j⟩
  unfold Cert.KernelIdeal.Hand.vnBlock
  rw [block_apply, v46_apply]
  unfold updK updR
  simp only [hw1a, hw1b, hb1, hb2, hg, hbe]

end Cert.VnBridge

end
-- ==== Proof.StageVn.lean ====
import proofs.«419202_j25975962206499_3_alg».proof.Proof.Launch
import proofs.«419202_j25975962206499_3_alg».proof.Proof.HostAt
import proofs.«419202_j25975962206499_3_alg».proof.Proof.VnValue
import proofs.«419202_j25975962206499_3_alg».proof.Proof.VnBridge
import proofs.«419202_j25975962206499_3_alg».proof.Defs

noncomputable section

namespace Cert.Stage

open Idealize.ShloMosaic Idealize.ShloMosaic.TcCoe Idealize.ShloMosaic.ValueIdx Idealize.SL.Sem
open Cert.KernelIdeal Cert.KernelIdeal.Gen Cert.KernelIdeal.HostValues

variable [hF : Cert.Pre_finite_inputs.Facts]

-- Each of the region's nine input arrays is read off the arguments: the pooled means by `hpool`, two arguments as they are, five through their row halves and row views.
theorem vn_result (m : (ℓ : Loc nD τ sig) → Buf (Elt Ideal) ℓ) (hpre : Cert.Pre_KernelIdeal m) (c : Dev Cert.KernelIdeal.nD)
    (hpool : HostValues.nodeMean ((Pool.dat (Launch.E1 m) c).arrAt 2 cfg0.N) ((Pool.dat (Launch.E1 m) c).arrAt 3 cfg0.N)
      = Cert.ReferenceIdeal.Read.val_main_v11 (F := Ideal) (m ((c : Thread nD τ).loc main_arg0)) (m ((c : Thread nD τ).loc main_arg14))) :
    (Gen.V6 m (Launch.outs m) c main_v25 : S128x512.Idx → EReal)
      = Cert.ReferenceIdeal.Read.val_main_v46 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg14)) := by
  rw [Launch.V6_v25 m c, Vn.vn_array (Launch.E3 m) c]
  exact Cert.VnBridge.vn_bridge _ _ _ _ _ _ _ _ _ _ _ _ _ _ _ _ _ _
    ((V3_v16 m (Launch.outsA m) c).trans ((congrArg₂ nodeMean (Launch.W2_arr m c 2) (Launch.W2_arr m c 3)).trans hpool))
    (V3_arg1 m (Launch.outsA m) c)
    (fun k h => (congrFun (V3_v17 m (Launch.outsA m) c) _).trans (rowsLo_apply' _ k h))
    (fun k h => (congrFun (V3_v18 m (Launch.outsA m) c) _).trans (rowsHi_apply' _ k h))
    (V3_arg4 m (Launch.outsA m) c)
    (fun h => (congrFun (V3_v21 m (Launch.outsA m) c) _).trans (asRow_apply _ 0 h))
    (fun h => (congrFun (V3_v22 m (Launch.outsA m) c) _).trans (asRow_apply _ 0 h))
    (fun h => (congrFun (V3_v23 m (Launch.outsA m) c) _).trans (asRow_apply _ 0 h))
    (fun h => (congrFun (V3_v24 m (Launch.outsA m) c) _).trans (asRow_apply _ 0 h))

end Cert.Stage

end
-- ==== Proof.StageNode.lean ====
import proofs.«419202_j25975962206499_3_alg».proof.Defs

noncomputable section

namespace Cert.Stage

open Idealize.ShloMosaic Idealize.ShloMosaic.TcCoe Idealize.SL.Sem
open Cert.KernelIdeal

variable (m : (ℓ : Loc nD τ sig) → Buf (Elt Ideal) ℓ) (c : Dev nD)

abbrev X0 : Vec Ideal S100000x512 .f32 := m ((c : Thread nD τ).loc main_arg0)
abbrev X1 : Vec Ideal S128x512 .f32 := m ((c : Thread nD τ).loc main_arg1)
abbrev X2 : Vec Ideal S1024x512 .f32 := m ((c : Thread nD τ).loc main_arg2)
abbrev X3 : Vec Ideal S512 .f32 := m ((c : Thread nD τ).loc main_arg3)
abbrev X4 : Vec Ideal S512x512 .f32 := m ((c : Thread nD τ).loc main_arg4)
abbrev X5 : Vec Ideal S512 .f32 := m ((c : Thread nD τ).loc main_arg5)
abbrev X6 : Vec Ideal S512 .f32 := m ((c : Thread nD τ).loc main_arg6)
abbrev X7 : Vec Ideal S512 .f32 := m ((c : Thread nD τ).loc main_arg7)
abbrev X8 : Vec Ideal S1024x512 .f32 := m ((c : Thread nD τ).loc main_arg8)
abbrev X9 : Vec Ideal S512 .f32 := m ((c : Thread nD τ).loc main_arg9)
abbrev X10 : Vec Ideal S512x512 .f32 := m ((c : Thread nD τ).loc main_arg10)
abbrev X11 : Vec Ideal S512 .f32 := m ((c : Thread nD τ).loc main_arg11)
abbrev X12 : Vec Ideal S512 .f32 := m ((c : Thread nD τ).loc main_arg12)
abbrev X13 : Vec Ideal S512 .f32 := m ((c : Thread nD τ).loc main_arg13)
abbrev X14 : Vec Ideal S100000 .i32 := m ((c : Thread nD τ).loc main_arg14)

end Cert.Stage

end
-- ==== Proof.NodeValue.lean ====
import proofs.«419202_j25975962206499_3_alg».proof.Proof.NodeBody
import Idealize.ShloMosaic.Lib.Pipeline.Value
import Idealize.ShloMosaic.Lib.ValueIdx

noncomputable section

namespace Cert.KernelIdeal.Node

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable {F : FTy → Type} [FloatOps F]
variable (V : (c : Dev nD) → (b : Ref sig .tc) → Buf (Elt F) ((c : Thread nD τ).loc b))

-- The rectangle at zero offsets of the array's own sizes is the whole shape, which places every index at itself.
theorem read_unit_zero (b : Ref sig .tc) {off : Fin b.ty.shape.rank → Nat} (h : off = fun _ => 0)
    (inb : ∀ a, off a + b.ty.shape.size a ≤ b.ty.shape.size a) (X : b.ty.Contents (Elt F)) :
    ((View.whole b).slice (Rect.unit off b.ty.shape.size inb)).read (Elt F) X = X := by
  subst h; exact funext fun x => congrArg X (Rect.emb_whole_apply _ x)

-- The library's placement of a block element, with the product in the order the row arithmetic below is written in.
theorem row_val {G : Pipeline.Grid} (w : Window sig G) (t : Fin G.N) (j : (w.xblock (G.coords t)).Idx)
    (a : Fin w.shape.rank) {k : Nat} (h : w.index t a = k) : ((w.rect t).emb j a : Nat) = w.size a * k + j a := by
  rw [w.rect_emb_val, h, Nat.mul_comm]

theorem lt100 (t : Fin cfg2.N) : t.val < 100 := lt_of_lt_of_eq t.isLt N_2

-- Decided by evaluating every index map over the grid; stated with Booleans so that each window's case reduces by evaluation.
theorem idx_facts : ∀ (t : Fin cfg2.N) (w : Fin cfg2.W) (a : Fin (cfg2.win w).shape.rank),
    (cfg2.win w).index t a = bif (decide (w.val < 2) || w.val == 10) && a.val == 0 then t.val else 0 := by
  decide +kernel

theorem off_zero (w : Fin cfg2.W) (hw : (decide (w.val < 2) || w.val == 10) = false) (t : Fin cfg2.N) :
    (fun a => (cfg2.win w).index t a * (cfg2.win w).size a) = fun _ => 0 :=
  funext fun a => by rw [idx_facts, hw]; exact Nat.zero_mul _

def xblk (c : Dev nD) (t : Fin 100) : Vec F S1000x512 .f32 := fun j =>
  (V c main_arg0 : S100000x512.Idx → Elt F .f32)
    (ix2 ⟨1000 * t.val + (j 0).val, by have := t.isLt; have : (j 0).val < 1000 := (j 0).isLt; omega⟩ (j 1))

def bblk (c : Dev nD) (t : Fin 100) : Vec F S1000x1 .i32 := fun j =>
  (V c main_v0 : S100000x1.Idx → Elt F .i32)
    (ix2 ⟨1000 * t.val + (j 0).val, by have := t.isLt; have : (j 0).val < 1000 := (j 0).isLt; omega⟩ (j 1))

variable (c : Dev nD) (t : Fin cfg2.N)

-- Each input block as a function of its array, to rewrite what a point writes back.
theorem iblk_0 : iblk V c 0 t = xblk V c ⟨t.val, lt100 t⟩ :=
  funext fun j => congrArg (V c main_arg0) (Shape.idx_ext₂ (row_val (cfg2.win 0) t j (0 : Fin 2) (idx_facts t 0 (0 : Fin 2)))
    ((cfg2.win 0).rect_emb_val_of_index_zero t (1 : Fin 2) (idx_facts t 0 (1 : Fin 2)) j))
theorem iblk_1 : iblk V c 1 t = bblk V c ⟨t.val, lt100 t⟩ :=
  funext fun j => congrArg (V c main_v0) (Shape.idx_ext₂ (row_val (cfg2.win 1) t j (0 : Fin 2) (idx_facts t 1 (0 : Fin 2)))
    ((cfg2.win 1).rect_emb_val_of_index_zero t (1 : Fin 2) (idx_facts t 1 (1 : Fin 2)) j))
theorem iblk_2 : iblk V c 2 t = V c main_v25 := read_unit_zero _ (off_zero 2 rfl t) _ _
theorem iblk_3 : iblk V c 3 t = V c main_v19 := read_unit_zero _ (off_zero 3 rfl t) _ _
theorem iblk_4 : iblk V c 4 t = V c main_v20 := read_unit_zero _ (off_zero 4 rfl t) _ _
theorem iblk_5 : iblk V c 5 t = V c main_v26 := read_unit_zero _ (off_zero 5 rfl t) _ _
theorem iblk_6 : iblk V c 6 t = V c main_arg10 := read_unit_zero _ (off_zero 6 rfl t) _ _
theorem iblk_7 : iblk V c 7 t = V c main_v27 := read_unit_zero _ (off_zero 7 rfl t) _ _
theorem iblk_8 : iblk V c 8 t = V c main_v28 := read_unit_zero _ (off_zero 8 rfl t) _ _
theorem iblk_9 : iblk V c 9 t = V c main_v29 := read_unit_zero _ (off_zero 9 rfl t) _ _

-- Distinct points have distinct row-block indices, hence disjoint blocks, so under point `t`'s block the array keeps what `t` wrote.
theorem node_array (c : Dev nD) (t : Fin 100) (r : Fin 1000) (h : Fin 512) :
    ((dat V c).arrAt 10 cfg2.N : S100000x512.Idx → Elt F .f32)
        (ix2 ⟨1000 * t.val + r.val, by have := t.isLt; have := r.isLt; omega⟩ h)
      = Hand.nodeBlock (xblk V c t) (bblk V c t) (V c main_v25) (V c main_v19) (V c main_v20) (V c main_v26) (V c main_arg10) (V c main_v27) (V c main_v28) (V c main_v29) (ix2 r h) := by
  obtain ⟨t, rfl⟩ : ∃ u : Fin cfg2.N, t = ⟨u.val, lt100 u⟩ := ⟨⟨t.val, t.isLt.trans_eq N_2.symm⟩, rfl⟩
  have e := (dat V c).arrAt_emb_eq_flushed 10 (fun u u' _ _ hne => (cfg2.win 10).disjoint_blk fun e => hne (Fin.ext (by
    have := congrFun e (0 : Fin 2); rwa [idx_facts, idx_facts] at this))) t (flush2_10 t) (ix2 r h)
  rw [show ((cfg2.win 10).blk t).view.emb (ix2 r h) = ix2 ⟨1000 * t.val + r.val, by have := lt100 t; have := r.isLt; omega⟩ h from
    Shape.idx_ext₂ (row_val (cfg2.win 10) t (ix2 r h) (0 : Fin 2) (idx_facts t 10 (0 : Fin 2)))
      ((cfg2.win 10).rect_emb_val_of_index_zero t (1 : Fin 2) (idx_facts t 10 (1 : Fin 2)) (ix2 r h))] at e
  refine e.trans ?_
  show (cfg2.win 10).cut _ ((dat V c).after 10 t) (ix2 r h) = _
  rw [after_out, out_eq, iblk_0, iblk_1, iblk_2, iblk_3, iblk_4, iblk_5, iblk_6, iblk_7, iblk_8, iblk_9]
  rfl

end Cert.KernelIdeal.Node

end
-- ==== Proof.PreFacts.lean ====
import proofs.«419202_j25975962206499_3_alg».proof.Pre_finite_inputs
import Idealize.ShloMosaic.Lib.ReduceAll
import Idealize.ShloMosaic.Lib.ValueIdx

set_option maxRecDepth 16384

noncomputable section

namespace Cert.PreFacts

open Idealize.ShloMosaic Idealize.ShloMosaic.ValueIdx
open Cert.Pre_finite_inputs

instance subsingleton_scalar_idx : Subsingleton S_.Idx := ⟨fun a b => funext fun d => d.elim0⟩

variable [hF : Cert.Pre_finite_inputs.Facts] {F : FTy → Type} [FloatOps F]
variable {a0 : FVec F S100000x512 .f32} {a1 : FVec F S128x512 .f32} {a2 : FVec F S1024x512 .f32} {a3 : FVec F S512 .f32}
  {a4 : FVec F S512x512 .f32} {a5 a6 a7 : FVec F S512 .f32} {a8 : FVec F S1024x512 .f32} {a9 : FVec F S512 .f32}
  {a10 : FVec F S512x512 .f32} {a11 a12 a13 : FVec F S512 .f32} {a14 : IVec S100000 32}

-- The predicate's last conjunct tests 0 ≤ w and w < 128, signed, at every segment id w; such a word is below 128 unsigned.
theorem batch_toNat_lt (h : fn (F := F) a0 a1 a2 a3 a4 a5 a6 a7 a8 a9 a10 a11 a12 a13 a14 = fun _ => 1#1) (i : Fin 100000) :
    (a14 (ix1 i)).toNat < 128 := by
  have e := congrFun h ix0
  dsimp only [fn, fn_part1, fn_part2, fn_part3, fn_part4] at e
  simp only [andi, IntOp.andi_eq_one] at e
  obtain ⟨h0, h8⟩ : IntOp.cmpi .sge (a14 (ix1 i)) 0#32 = 1#1 ∧ IntOp.cmpi .slt (a14 (ix1 i)) 128#32 = 1#1 :=
    IntOp.andi_eq_one.1 (Host.reduce_andi_all _ _ _ _ ix0 e.2 (ix1 i))
  rw [IntOp.cmpi_sge, show (0#32 : BitVec 32).toInt = 0 by decide] at h0
  rw [IntOp.cmpi_slt, show (128#32 : BitVec 32).toInt = 128 by decide] at h8
  have hlt := (a14 (ix1 i)).isLt
  have e' := BitVec.toInt_eq_toNat_cond (a14 (ix1 i))
  split at e' <;> omega

end Cert.PreFacts

end
-- ==== Proof.StageNodeArr.lean ====
import proofs.«419202_j25975962206499_3_alg».proof.Proof.StageNode
import proofs.«419202_j25975962206499_3_alg».proof.Proof.NodeValue
import proofs.«419202_j25975962206499_3_alg».proof.Proof.Gen.Pre_finite_inputs
import proofs.«419202_j25975962206499_3_alg».proof.Proof.Gen.ReferenceIdeal.Read
import proofs.«419202_j25975962206499_3_alg».proof.Proof.Launch
import proofs.«419202_j25975962206499_3_alg».proof.Proof.HostAt
import proofs.«419202_j25975962206499_3_alg».proof.Proof.PreFacts

noncomputable section

namespace Cert.Stage

open Idealize.ShloMosaic Idealize.ShloMosaic.TcCoe Idealize.ShloMosaic.ValueIdx Idealize.SL.Sem
open Cert.KernelIdeal Cert.KernelIdeal.Gen Cert.KernelIdeal.HostValues

variable (m : (ℓ : Loc nD τ sig) → Buf (Elt Ideal) ℓ)

-- Row `i` is row `i % 1000` of block `i / 1000`; that block's inputs are rows, row halves and row views of the arguments, so `hnode` closes it.
theorem x_result (hpre : Cert.Pre_KernelIdeal m) (c : Dev nD)
    (hvn : (Gen.V6 m (Launch.outs m) c main_v25 : S128x512.Idx → EReal)
      = Cert.ReferenceIdeal.Read.val_main_v46 (F := Ideal) (X0 m c) (X1 m c) (X2 m c) (X3 m c) (X4 m c) (X5 m c) (X6 m c) (X7 m c) (X14 m c))
    (hnode : ∀ (t : Fin 100)
      (xblk : Vec Ideal S1000x512 .f32) (bblk : Vec Ideal S1000x1 .i32) (vnn : Vec Ideal S128x512 .f32)
      (w3a w3b : Vec Ideal S512x512 .f32) (b3 : Vec Ideal S1x512 .f32) (w4 : Vec Ideal S512x512 .f32)
      (b4 g be : Vec Ideal S1x512 .f32),
      (∀ (r : Fin 1000) (h : Fin 512), xblk (ix2 r h)
        = X0 m c (ix2 (⟨1000 * t.val + r.val, by have := t.isLt; have := r.isLt; omega⟩ : Fin 100000) h)) →
      (∀ r : Fin 1000, bblk (ix2 r (0 : Fin 1))
        = X14 m c (ix1 (⟨1000 * t.val + r.val, by have := t.isLt; have := r.isLt; omega⟩ : Fin 100000))) →
      vnn = Cert.ReferenceIdeal.Read.val_main_v46 (F := Ideal) (X0 m c) (X1 m c) (X2 m c) (X3 m c) (X4 m c) (X5 m c) (X6 m c) (X7 m c) (X14 m c) →
      (∀ a k : Fin 512, w3a (ix2 a k) = X8 m c (ix2 (⟨a.val, by omega⟩ : Fin 1024) k)) →
      (∀ a k : Fin 512, w3b (ix2 a k) = X8 m c (ix2 (⟨512 + a.val, by omega⟩ : Fin 1024) k)) →
      (∀ k : Fin 512, b3 (ix2 (0 : Fin 1) k) = X9 m c (ix1 k)) →
      w4 = X10 m c →
      (∀ k : Fin 512, b4 (ix2 (0 : Fin 1) k) = X11 m c (ix1 k)) →
      (∀ k : Fin 512, g (ix2 (0 : Fin 1) k) = X12 m c (ix1 k)) →
      (∀ k : Fin 512, be (ix2 (0 : Fin 1) k) = X13 m c (ix1 k)) →
      (∀ i : Fin 100000, BitVec.toNat (X14 m c (ix1 i)) < 128) →
      ∀ (r : Fin 1000) (h : Fin 512),
        Hand.nodeBlock xblk bblk vnn w3a w3b b3 w4 b4 g be (ix2 r h)
          = Cert.ReferenceIdeal.Read.val_main_v88 (F := Ideal) (X0 m c) (X1 m c) (X2 m c) (X3 m c) (X4 m c) (X5 m c) (X6 m c) (X7 m c) (X8 m c) (X9 m c) (X10 m c) (X11 m c) (X12 m c) (X13 m c) (X14 m c)
              (ix2 (⟨1000 * t.val + r.val, by have := t.isLt; have := r.isLt; omega⟩ : Fin 100000) h)) :
    (Gen.V6 m (Launch.outs m) c main_v30 : S100000x512.Idx → EReal)
      = Cert.ReferenceIdeal.Read.val_main_v88 (F := Ideal) (X0 m c) (X1 m c) (X2 m c) (X3 m c) (X4 m c) (X5 m c) (X6 m c) (X7 m c) (X8 m c) (X9 m c) (X10 m c) (X11 m c) (X12 m c) (X13 m c) (X14 m c) := by
  rw [Launch.V6_v30 m c]
  funext i
  obtain ⟨a, h, rfl⟩ : ∃ (a : Fin 100000) (h : Fin 512), i = ix2 a h := ⟨i 0, i 1, eq_ix2 i⟩
  obtain ⟨t, r, rfl⟩ : ∃ (t : Fin 100) (r : Fin 1000),
      a = (⟨1000 * t.val + r.val, by have := t.isLt; have := r.isLt; omega⟩ : Fin 100000) :=
    ⟨⟨a.val / 1000, by have := a.isLt; omega⟩, ⟨a.val % 1000, Nat.mod_lt _ (by decide)⟩,
      Fin.ext (by show a.val = 1000 * (a.val / 1000) + a.val % 1000; omega)⟩
  rw [Node.node_array (Launch.E5 m) c t r h]
  exact hnode t _ _ _ _ _ _ _ _ _ _
    (fun _ _ => congrFun (V5_arg0 m (Launch.outsB m) c) _)
    (fun _ => (congrFun (V5_v0 m (Launch.outsB m) c) _).trans (asCol_apply _ _ _))
    ((V5_v25 m (Launch.outsB m) c).trans (((Launch.W4_arr m c 9).trans (Launch.V6_v25 m c).symm).trans hvn))
    (fun a k => (congrFun (V5_v19 m (Launch.outsB m) c) (ix2 a k)).trans (rowsLo_apply' _ a k))
    (fun a k => (congrFun (V5_v20 m (Launch.outsB m) c) (ix2 a k)).trans (rowsHi_apply' _ a k))
    (fun k => (congrFun (V5_v26 m (Launch.outsB m) c) (ix2 (0 : Fin 1) k)).trans (asRow_apply _ 0 k))
    (V5_arg10 m (Launch.outsB m) c)
    (fun k => (congrFun (V5_v27 m (Launch.outsB m) c) (ix2 (0 : Fin 1) k)).trans (asRow_apply _ 0 k))
    (fun k => (congrFun (V5_v28 m (Launch.outsB m) c) (ix2 (0 : Fin 1) k)).trans (asRow_apply _ 0 k))
    (fun k => (congrFun (V5_v29 m (Launch.outsB m) c) (ix2 (0 : Fin 1) k)).trans (asRow_apply _ 0 k))
    (fun i => Cert.PreFacts.batch_toNat_lt (hpre c) i)
    r h

end Cert.Stage

end
-- ==== Proof.PoolSums.lean ====
import Idealize.ShloMosaic.PureOps.Ideal.Laws
import Idealize.ShloMosaic.Lib.ValueIdxRank1
import Idealize.ShloMosaic.Lib.Pipeline.Value

set_option maxRecDepth 16384

noncomputable section

namespace Cert.PoolSums

open Idealize.ShloMosaic Idealize.ShloMosaic.ValueIdx

-- The indicator of "the segment word w is j".
def hot (w : BitVec 32) (j : ℕ) : EReal := if w = BitVec.ofNat 32 j then 1 else 0

theorem hot_mul (w : BitVec 32) (j : ℕ) (x : EReal) : hot w j * x = if w = BitVec.ofNat 32 j then x else 0 := by
  rw [hot, ite_mul, one_mul, zero_mul]

-- A word read signed is j, below 128, exactly when it is the word of j.
theorem toInt_eq_iff (w : BitVec 32) (j : ℕ) (hj : j < 128) : w.toInt = j ↔ w = BitVec.ofNat 32 j := by
  have := w.isLt
  rw [BitVec.toNat_eq, BitVec.toNat_ofNat, Nat.mod_eq_of_lt (show j < 2 ^ 32 by omega), BitVec.toInt_eq_toNat_cond]
  split <;> omega

-- An update lands on i exactly when, on every axis, its start plus its window coordinate is i's coordinate.
theorem resultIdx?_eq_some {s si u : Shape} (d : ScatterDims s si u) {w : Nat} (j : u.Idx) (idx : IVec si w) (i : s.Idx) :
    d.resultIdx? j idx = some i ↔ ∀ a, d.start j idx a + d.window j a = (i a).val := by
  unfold ScatterDims.resultIdx?
  split
  · rename_i h
    rw [Option.some.injEq, funext_iff]
    refine forall_congr' fun a => ?_
    have := h a
    rw [Fin.ext_iff]
    show (d.start j idx a + d.window j a).toNat = (i a).val ↔ _
    omega
  · rename_i h
    exact iff_of_false (fun e => nomatch e) fun e => h fun a => by rw [e a]; have := (i a).isLt; omega

abbrev So : Shape := ⟨2, ![128, 512]⟩
abbrev Si : Shape := ⟨2, ![100000, 1]⟩
abbrev Su : Shape := ⟨2, ![100000, 512]⟩

-- Rows scattered by the words of a column: the update's axis 1 is the window, the operand's axis 0 the scattered one.
def dS : ScatterDims So Si Su where
  updateWindowDims := [1]
  insertedWindowDims := [0]
  scatterDimsToOperandDims := [0]
  indexVectorDim := 1

theorem siIdx_eq (j : Su.Idx) (c : Fin dS.scatterDimsToOperandDims.length) : dS.siIdx j c = ix2 (j 0) (0 : Fin 1) := by
  funext b
  match b with
  | ⟨0, _⟩ => rfl
  | ⟨1, _⟩ => exact Fin.ext (Nat.lt_one_iff.mp c.isLt)

theorem start0 (j : Su.Idx) (idx : IVec Si 32) : dS.start j idx 0 = (idx (ix2 (j 0) (0 : Fin 1))).toInt := by
  unfold ScatterDims.start
  rw [dif_pos (by decide)]
  exact congrArg (fun k => (idx k).toInt) (siIdx_eq j _)

theorem start1 (j : Su.Idx) (idx : IVec Si 32) : dS.start j idx 1 = 0 := dif_neg (by decide)

theorem window0 (j : Su.Idx) : dS.window j 0 = 0 := dif_neg (by decide)

theorem window1 (j : Su.Idx) : dS.window j 1 = (j 1).val := dif_pos (by decide)

-- Update (i, h') lands on (j, h) exactly when h' = h and row i's word is j.
theorem landS (idx : IVec Si 32) (i : Fin 100000) (h' h : Fin 512) (j : Fin 128) :
    dS.resultIdx? (ix2 i h') idx = some (ix2 j h) ↔ h' = h ∧ idx (ix2 i (0 : Fin 1)) = BitVec.ofNat 32 j.val := by
  rw [resultIdx?_eq_some, Fin.forall_fin_two, start0, window0, start1, window1, ← toInt_eq_iff _ _ j.isLt, Fin.ext_iff]
  show (idx (ix2 i (0 : Fin 1))).toInt + ((0 : ℕ) : ℤ) = (j.val : ℤ) ∧ (0 : ℤ) + ((h'.val : ℕ) : ℤ) = (h.val : ℤ) ↔ _
  omega

-- The scatter read at (j, h): what was there plus the rows of segment j, at column h.
theorem scatterRows_apply (x : So.Idx → EReal) (idx : IVec Si 32) (upd : Su.Idx → EReal) (j : Fin 128) (h : Fin 512) :
    Ideal.hostScatterAdd dS x idx upd (ix2 j h)
      = x (ix2 j h) + ∑ i : Fin 100000, hot (idx (ix2 i (0 : Fin 1))) j.val * upd (ix2 i h) := by
  unfold Ideal.hostScatterAdd
  rw [Finset.sum_filter, sum_idx2]
  simp only [landS, ite_and, Finset.sum_ite_eq', Finset.mem_univ, if_true, hot_mul]

abbrev Co : Shape := ⟨1, ![128]⟩
abbrev Cu : Shape := ⟨1, ![100000]⟩

def dC : ScatterDims Co Si Cu where
  updateWindowDims := []
  insertedWindowDims := [0]
  scatterDimsToOperandDims := [0]
  indexVectorDim := 1

theorem siIdxC_eq (j : Cu.Idx) (c : Fin dC.scatterDimsToOperandDims.length) : dC.siIdx j c = ix2 (j 0) (0 : Fin 1) := by
  funext b
  match b with
  | ⟨0, _⟩ => rfl
  | ⟨1, _⟩ => exact Fin.ext (Nat.lt_one_iff.mp c.isLt)

theorem startC (j : Cu.Idx) (idx : IVec Si 32) : dC.start j idx 0 = (idx (ix2 (j 0) (0 : Fin 1))).toInt := by
  unfold ScatterDims.start
  rw [dif_pos (by decide)]
  exact congrArg (fun k => (idx k).toInt) (siIdxC_eq j _)

theorem windowC (j : Cu.Idx) : dC.window j 0 = 0 := dif_neg (by decide)

theorem landC (idx : IVec Si 32) (i : Fin 100000) (j : Fin 128) :
    dC.resultIdx? (ix1 i) idx = some (ix1 j) ↔ idx (ix2 i (0 : Fin 1)) = BitVec.ofNat 32 j.val := by
  rw [resultIdx?_eq_some, Fin.forall_fin_one, startC, windowC, ← toInt_eq_iff _ _ j.isLt]
  show (idx (ix2 i (0 : Fin 1))).toInt + ((0 : ℕ) : ℤ) = (j.val : ℤ) ↔ _
  omega

-- The scatter read at j: what was there plus the updates of segment j.
theorem scatterOnes_apply (x : Co.Idx → EReal) (idx : IVec Si 32) (upd : Cu.Idx → EReal) (j : Fin 128) :
    Ideal.hostScatterAdd dC x idx upd (ix1 j)
      = x (ix1 j) + ∑ i : Fin 100000, hot (idx (ix2 i (0 : Fin 1))) j.val * upd (ix1 i) := by
  unfold Ideal.hostScatterAdd
  rw [Finset.sum_filter, ← Equiv.sum_comp idxEquiv1.symm]
  simp only [hot_mul, ← landC]
  rfl

-- 25 steps of 2000 rows each, the first from nothing: after step i of half c the running value is the sum of the half's first 2000 (i + 1) rows.
theorem fold_steps (f : ℕ → EReal) (a : ℕ → EReal)
    (h0 : ∀ t, t < 50 → t % 25 = 0 → a t = ∑ r ∈ Finset.range 2000, f (2000 * t + r))
    (hs : ∀ t, t < 50 → t % 25 ≠ 0 → a t = a (t - 1) + ∑ r ∈ Finset.range 2000, f (2000 * t + r))
    (c i : ℕ) (hc : c < 2) (hi : i < 25) :
    a (25 * c + i) = ∑ k ∈ Finset.range (2000 * (i + 1)), f (50000 * c + k) := by
  induction i with
  | zero =>
    rw [h0 (25 * c + 0) (by omega) (by omega)]
    exact Finset.sum_congr rfl fun r _ => congrArg f (by omega)
  | succ i ih =>
    rw [hs (25 * c + (i + 1)) (by omega) (by omega), show 25 * c + (i + 1) - 1 = 25 * c + i by omega, ih (by omega),
      show 2000 * (i + 1 + 1) = 2000 * (i + 1) + 2000 by omega, Finset.sum_range_add]
    exact congrArg (_ + ·) (Finset.sum_congr rfl fun r _ => congrArg f (by omega))

theorem halves_add (f : ℕ → EReal) :
    (∑ k ∈ Finset.range 50000, f (50000 * 0 + k)) + (∑ k ∈ Finset.range 50000, f (50000 * 1 + k))
      = ∑ k ∈ Finset.range 100000, f k := by
  rw [show (100000 : ℕ) = 50000 + 50000 by rfl, Finset.sum_range_add]
  exact congrArg₂ (· + ·) (Finset.sum_congr rfl fun r _ => congrArg f (by omega)) (Finset.sum_congr rfl fun r _ => congrArg f (by omega))

end Cert.PoolSums

end
-- ==== Proof.PoolTerms.lean ====
import proofs.«419202_j25975962206499_3_alg».proof.Proof.PoolSums

noncomputable section

namespace Cert.PoolSums

open Idealize.ShloMosaic Idealize.ShloMosaic.ValueIdx

-- Row k's contribution to entry (j, h) of the sums, and to entry j of the sizes; nothing outside the arrays.
def term (sg : IVec Si 32) (rw : Su.Idx → EReal) (j h k : ℕ) : EReal :=
  if hk : k < 100000 then if hh : h < 512 then hot (sg (ix2 ⟨k, hk⟩ (0 : Fin 1))) j * rw (ix2 ⟨k, hk⟩ ⟨h, hh⟩) else 0 else 0
def termC (sg : IVec Si 32) (j k : ℕ) : EReal :=
  if hk : k < 100000 then hot (sg (ix2 ⟨k, hk⟩ (0 : Fin 1))) j else 0

theorem sum_term (sg : IVec Si 32) (rw : Su.Idx → EReal) (j : ℕ) (h : Fin 512) :
    ∑ k ∈ Finset.range 100000, term sg rw j h.val k = ∑ i : Fin 100000, hot (sg (ix2 i (0 : Fin 1))) j * rw (ix2 i h) := by
  rw [Finset.sum_range]
  exact Finset.sum_congr rfl fun i _ => by rw [term, dif_pos i.isLt, dif_pos h.isLt]
theorem sum_termC (sg : IVec Si 32) (j : ℕ) :
    ∑ k ∈ Finset.range 100000, termC sg j k = ∑ i : Fin 100000, hot (sg (ix2 i (0 : Fin 1))) j := by
  rw [Finset.sum_range]
  exact Finset.sum_congr rfl fun i _ => by rw [termC, dif_pos i.isLt]

end Cert.PoolSums

end
-- ==== Proof.PoolRef.lean ====
import proofs.«419202_j25975962206499_3_alg».proof.Proof.Gen.ReferenceIdeal.Read
import proofs.«419202_j25975962206499_3_alg».proof.Proof.PoolSums
import Idealize.ShloMosaic.Lib.IdealHost

set_option maxRecDepth 16384

noncomputable section

namespace Cert.PoolRef

open Idealize.ShloMosaic Idealize.ShloMosaic.ValueIdx Cert.PoolSums
open Cert.ReferenceIdeal Cert.ReferenceIdeal.Gen Cert.ReferenceIdeal.Read

-- The segment words laid as a column read the word of their row.
theorem v1_apply (x14 : Vec Ideal S100000 .i32) (i : Fin 100000) :
    val_main_v1 (F := Ideal) x14 (ix2 i (0 : Fin 1)) = x14 (ix1 i) := by
  rw [val_main_v1_apply]
  exact congrArg x14 (funext fun a => match a with | ⟨0, _⟩ => rfl)
theorem v5_apply (x14 : Vec Ideal S100000 .i32) (i : Fin 100000) :
    val_main_v5 (F := Ideal) x14 (ix2 i (0 : Fin 1)) = x14 (ix1 i) := by
  rw [val_main_v5_apply]
  exact congrArg x14 (funext fun a => match a with | ⟨0, _⟩ => rfl)

theorem v0_apply (i : S128x512.Idx) : val_main_v0 (F := Ideal) i = 0 := by
  rw [val_main_v0_apply, val_main_cst_apply]
  exact Ideal.ofBits_zero_f32
theorem v4_apply (i : S128.Idx) : val_main_v4 (F := Ideal) i = 0 := by
  rw [val_main_v4_apply, val_main_cst_1_apply]
  exact Ideal.ofBits_zero_f32
theorem v3_apply (i : S100000.Idx) : val_main_v3 (F := Ideal) i = 1 := by
  rw [val_main_v3_apply, val_main_cst_0_apply]
  exact Ideal.ofBits_one_f32

-- The reference's sums by segment at (j, h): a scatter of the rows from zeros.
theorem v2_apply (x0 : Vec Ideal S100000x512 .f32) (x14 : Vec Ideal S100000 .i32) (j : Fin 128) (h : Fin 512) :
    val_main_v2 (F := Ideal) x0 x14 (ix2 j h) = ∑ i : Fin 100000, hot (x14 (ix1 i)) j.val * x0 (ix2 i h) := by
  show Ideal.hostScatterAdd dS (val_main_v0 (F := Ideal)) (val_main_v1 (F := Ideal) x14) x0 (ix2 j h) = _
  simp only [scatterRows_apply, v0_apply, zero_add, v1_apply]

-- Its segment sizes at j: the same scatter of ones.
theorem v6_apply (x14 : Vec Ideal S100000 .i32) (j : Fin 128) :
    val_main_v6 (F := Ideal) x14 (ix1 j) = ∑ i : Fin 100000, hot (x14 (ix1 i)) j.val := by
  show Ideal.hostScatterAdd dC (val_main_v4 (F := Ideal)) (val_main_v5 (F := Ideal) x14) (val_main_v3 (F := Ideal)) (ix1 j) = _
  simp only [scatterOnes_apply, v4_apply, zero_add, v5_apply, v3_apply, mul_one]

end Cert.PoolRef

end
-- ==== Proof.PoolBridge.lean ====
import proofs.«419202_j25975962206499_3_alg».proof.Proof.HostValues
import proofs.«419202_j25975962206499_3_alg».proof.Proof.PoolTerms
import proofs.«419202_j25975962206499_3_alg».proof.Proof.PoolRef

set_option maxRecDepth 16384

noncomputable section

namespace Cert.PoolBridge

open Idealize.ShloMosaic Idealize.ShloMosaic.ValueIdx Cert.PoolSums
open Cert.ReferenceIdeal.Read

-- The reference's divisor at (j, h): the number of rows of segment j, or one if that is larger.
theorem ref_divisor (x14 : Vec Ideal Cert.ReferenceIdeal.S100000 .i32) (j : Fin 128) (h : Fin 512) :
    val_main_v10 (F := Ideal) x14 (ix2 j h) = max (∑ i : Fin 100000, hot (x14 (ix1 i)) j.val) 1 := by
  have e : idx_main_v9 (idx_main_v10 (ix2 j h)) = ix1 j := funext fun a => match a with | ⟨0, _⟩ => rfl
  rw [val_main_v10_apply, val_main_v9_apply, val_main_v8_apply, e, Cert.PoolRef.v6_apply, val_main_v7_apply, val_main_cst_2_apply]
  exact congrArg (max _) Ideal.ofBits_one_f32

-- The two halves' sums and sizes by segment add up to those over all rows; so the two quotients have the same numerator and denominator.
theorem pool_bridge (p : Vec Ideal Cert.KernelIdeal.S2x128x512 .f32) (q : Vec Ideal Cert.KernelIdeal.S2x1x128 .f32)
    (sg : Vec Ideal Cert.KernelIdeal.S100000x1 .i32) (rows : Vec Ideal Cert.KernelIdeal.S100000x512 .f32)
    (x0 : Vec Ideal Cert.ReferenceIdeal.S100000x512 .f32) (x14 : Vec Ideal Cert.ReferenceIdeal.S100000 .i32)
    (hp : ∀ (u : Fin 2) (j : Fin 128) (h : Fin 512),
      p (ix3 u j h) = ∑ k ∈ Finset.range 50000, term sg rows j.val h.val (50000 * u.val + k))
    (hq : ∀ (u : Fin 2) (v : Fin 1) (j : Fin 128),
      q (ix3 u v j) = ∑ k ∈ Finset.range 50000, termC sg j.val (50000 * u.val + k))
    (hsg : ∀ i : Fin 100000, sg (ix2 i (0 : Fin 1)) = x14 (ix1 i))
    (hrw : rows = x0)
    (hrange : ∀ i : Fin 100000, (x14 (ix1 i)).toNat < 128) :
    Cert.KernelIdeal.HostValues.nodeMean p q = val_main_v11 (F := Ideal) x0 x14 := by
  subst hrw
  funext i
  obtain ⟨j, h, rfl⟩ : ∃ (j : Fin 128) (h : Fin 512), i = ix2 j h := ⟨i 0, i 1, eq_ix2 i⟩
  have e1 : p (ix3 (0 : Fin 2) j h) + p (ix3 (1 : Fin 2) j h) = ∑ i : Fin 100000, hot (sg (ix2 i (0 : Fin 1))) j.val * rows (ix2 i h) := by
    rw [hp, hp]; exact (halves_add (term sg rows j.val h.val)).trans (sum_term sg rows j.val h)
  have e2 : q (ix3 (0 : Fin 2) (0 : Fin 1) j) + q (ix3 (1 : Fin 2) (0 : Fin 1) j) = ∑ i : Fin 100000, hot (sg (ix2 i (0 : Fin 1))) j.val := by
    rw [hq, hq]; exact (halves_add (termC sg j.val)).trans (sum_termC sg j.val)
  rw [Cert.KernelIdeal.HostValues.nodeMean_ideal, e1, e2, val_main_v11_apply]
  show _ = Ideal.div (val_main_v2 (F := Ideal) rows x14 (ix2 j h)) (val_main_v10 (F := Ideal) x14 (ix2 j h))
  rw [Cert.PoolRef.v2_apply, ref_divisor]
  simp only [hsg]

end Cert.PoolBridge

end
-- ==== Proof.PoolMath.lean ====
import proofs.«419202_j25975962206499_3_alg».proof.Proof.Blocks
import proofs.«419202_j25975962206499_3_alg».proof.Proof.PoolSums
import Idealize.ShloMosaic.Lib.ValueLayout
import Idealize.ShloMosaic.Lib.KernelVsHost
import Idealize.ShloMosaic.Lib.StableHlo.Predicate

set_option maxRecDepth 16384

noncomputable section

namespace Cert.KernelIdeal.PoolMath

open Idealize.ShloMosaic Idealize.ShloMosaic.ValueIdx Idealize.ShloMosaic.StableHlo.Predicate
open Cert.KernelIdeal Cert.KernelIdeal.Gen Cert.PoolSums

-- A one-bit condition widened and converted is 1 where it holds and 0 where it does not.
theorem sitofp_bit (c : BitVec 1) : (FloatOps.sitofp (F := Ideal) .f32 (c.setWidth 32) : EReal) = if c = 1#1 then 1 else 0 := by
  show ((((c.setWidth 32).toInt : ℤ) : ℝ) : EReal) = _
  rw [toInt_setWidth_bit]
  rcases BitVec.eq_zero_or_eq_one c with rfl | rfl <;> simp

-- The block's comparison of each row's word with the column number is the indicator matrix.
theorem pay3_apply (b : Vec Ideal S2000x1 .i32) (r : Fin 2000) (j : Fin 128) :
    k0_pay3 (F := Ideal) b (ix2 r j) = hot (b (ix2 r (0 : Fin 1))) j.val := by
  unfold k0_pay3
  show FloatOps.sitofp (F := Ideal) .f32 ((IntOp.cmpi .eq (broadcastTo S2000x128 (shapeCast S2000x1 b shapeCasts_S2000x1_S2000x1) broadcasts_S2000x1_S2000x128 (ix2 r j))
      (iota .tc S2000x128 32 [1] iota_S2000x128_d1_w32 (ix2 r j))).setWidth 32) = _
  rw [sitofp_bit, shapeCast_self, iota_single_apply,
    broadcastTo_apply b broadcasts_S2000x1_S2000x128 (ix2 r j) (ix2 r (0 : Fin 1)) fun a => match a with | ⟨0, _⟩ => rfl | ⟨1, _⟩ => rfl]
  exact if_congr cmpi_eq_iff rfl rfl

abbrev dK : DotDims S2000x128 S2000x512 S128x512 := dot_S2000x128_S2000x512_S128x512_0_0_1_1_n_n

-- The product contracts the row axis of both operands: at (j, h) and row r it reads the indicator at (r, j) and the block at (r, h).
theorem lhsIdx_eq (j : Fin 128) (h : Fin 512) (r : Fin 2000) :
    dK.lhsIdx (ix2 j h) ((contrEquiv1 dK 2000 rfl rfl).symm r) = ix2 r j :=
  funext fun a => Fin.ext (by
    match a with
    | ⟨0, _⟩ => exact (dK.lhsIdx_val_of_single rfl _ _).trans (contrEquiv1_symm_val dK 2000 rfl rfl r)
    | ⟨1, _⟩ =>
      show (dK.lhsIdx _ _ 1).val = j.val
      unfold DotDims.lhsIdx
      rw [dif_neg (show ¬(1 : Fin S2000x128.rank) ∈ dK.lhsBatch from List.not_mem_nil),
        dif_pos (show (1 : Fin S2000x128.rank) ∈ dK.lhsNonContracting from List.mem_singleton.mpr rfl)]
      rfl)
theorem rhsIdx_eq (j : Fin 128) (h : Fin 512) (r : Fin 2000) :
    dK.rhsIdx (ix2 j h) ((contrEquiv1 dK 2000 rfl rfl).symm r) = ix2 r h :=
  funext fun a => Fin.ext (by
    match a with
    | ⟨0, _⟩ => exact (dK.rhsIdx_val_of_single rfl _ _).trans (contrEquiv1_symm_val dK 2000 rfl rfl r)
    | ⟨1, _⟩ =>
      show (dK.rhsIdx _ _ 1).val = h.val
      unfold DotDims.rhsIdx
      rw [dif_neg (show ¬(1 : Fin S2000x512.rank) ∈ dK.rhsBatch from List.not_mem_nil),
        dif_pos (show (1 : Fin S2000x512.rank) ∈ dK.rhsNonContracting from List.mem_singleton.mpr rfl)]
      rfl)

-- One step adds to entry (j, h) of the sums the block's rows of segment j, at column h.
theorem poolAcc_apply (b : Vec Ideal S2000x1 .i32) (x : Vec Ideal S2000x512 .f32) (acc : Vec Ideal S128x512 .f32)
    (j : Fin 128) (h : Fin 512) :
    Hand.poolAcc (F := Ideal) b x acc (ix2 j h)
      = acc (ix2 j h) + ∑ r : Fin 2000, hot (b (ix2 r (0 : Fin 1))) j.val * x (ix2 r h) := by
  show k0_pay4 (F := Ideal) b x acc (ix2 j h) = _
  unfold k0_pay4
  rw [shapeCast_self]
  show acc (ix2 j h) + FloatOps.matmul dK none (truncf .bf16 (k0_pay3 b) bitsLt_bf16_f32) (truncf .bf16 x bitsLt_bf16_f32)
      (constant S128x512 .f32 0x00000000#32) (ix2 j h) = _
  rw [Ideal.matmul_constant_zero_apply, ← Equiv.sum_comp (contrEquiv1 dK 2000 rfl rfl).symm]
  refine congrArg (acc (ix2 j h) + ·) (Finset.sum_congr rfl fun r _ => ?_)
  rw [lhsIdx_eq, rhsIdx_eq]
  exact congrArg (· * x (ix2 r h)) (pay3_apply b r j)

theorem lift_eq (j : Fin 128) (r : Fin 2000) :
    (reduces_S2000x128_S128 : S2000x128.Reduces [0] S128).lift (ix1 j) r = ix2 r j :=
  funext fun a => match a with | ⟨0, _⟩ => rfl | ⟨1, _⟩ => rfl

-- And to entry j of the sizes the number of the block's rows of segment j: the indicator's column sum.
theorem poolCnt_apply (b : Vec Ideal S2000x1 .i32) (cnt : Vec Ideal S1x128 .f32) (u : Fin 1) (j : Fin 128) :
    Hand.poolCnt (F := Ideal) b cnt (ix2 u j)
      = cnt (ix2 u j) + ∑ r : Fin 2000, hot (b (ix2 r (0 : Fin 1))) j.val := by
  show k0_pay5 (F := Ideal) b cnt (ix2 u j) = _
  unfold k0_pay5
  rw [shapeCast_self]
  refine congrArg (cnt (ix2 u j) + ·) ((shapeCast_a_1a_apply _ shapeCasts_S128_S1x128 u j).trans ?_)
  refine (Ideal.multiReduction_add_single (k0_pay3 (F := Ideal) b) _ reduces_S2000x128_S128 _ _ (ix1 j)).trans ?_
  exact Finset.sum_congr rfl fun r _ => (congrArg (k0_pay3 (F := Ideal) b) (lift_eq j r)).trans (pay3_apply b r j)

-- The first step of a half starts from zeros.
theorem pay1_apply (i : S128x512.Idx) : k0_pay1 (F := Ideal) i = 0 := by
  unfold k0_pay1
  rw [shapeCast_self]
  exact Ideal.ofBits_zero_f32
theorem pay2_apply (i : S1x128.Idx) : k0_pay2 (F := Ideal) i = 0 := by
  unfold k0_pay2
  rw [shapeCast_self]
  exact Ideal.ofBits_zero_f32

-- The last step re-lays the two accumulators under one more unit axis.
theorem poolOutSum_apply (acc : Vec Ideal S128x512 .f32) (u : Fin 1) (j : Fin 128) (h : Fin 512) :
    Hand.poolOutSum (F := Ideal) acc (ix3 u j h) = acc (ix2 j h) :=
  shapeCast_ab_1ab_apply acc _ u j h

theorem poolOutCnt_apply (cnt : Vec Ideal S1x128 .f32) (u v : Fin 1) (j : Fin 128) :
    Hand.poolOutCnt (F := Ideal) cnt (ix3 u v j) = cnt (ix2 v j) :=
  shapeCast_ab_1ab_apply cnt _ u v j

end Cert.KernelIdeal.PoolMath

end
-- ==== Proof.PoolValue.lean ====
import proofs.«419202_j25975962206499_3_alg».proof.Proof.Gen.KernelIdeal.Launch
import proofs.«419202_j25975962206499_3_alg».proof.Proof.Gen.KernelIdeal.Skeleton
import proofs.«419202_j25975962206499_3_alg».proof.Proof.Gen.KernelIdeal.Points
import proofs.«419202_j25975962206499_3_alg».proof.Proof.PoolTerms
import proofs.«419202_j25975962206499_3_alg».proof.Proof.PoolMath

set_option maxRecDepth 16384

noncomputable section

namespace Cert.KernelIdeal.PoolValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.PoolSums Cert.KernelIdeal.PoolMath

variable (V : (c : Dev nD) → (b : Ref sig .tc) → Buf (Elt Ideal) ((c : Thread nD τ).loc b))

abbrev segs (c : Dev nD) : Vec Ideal S100000x1 .i32 := V c main_v0
abbrev rows (c : Dev nD) : Vec Ideal S100000x512 .f32 := V c main_arg0

theorem idx0 : ∀ t : Fin grid0.N, win0_0.index t 0 = t.val ∧ win0_0.index t 1 = 0 := by decide +kernel
theorem idx1 : ∀ t : Fin grid0.N, win0_1.index t 0 = t.val ∧ win0_1.index t 1 = 0 := by decide +kernel
theorem idx2 : ∀ t : Fin grid0.N, win0_2.index t 0 = t.val / 25 ∧ win0_2.index t 1 = 0 ∧ win0_2.index t 2 = 0 := by decide +kernel
theorem idx3 : ∀ t : Fin grid0.N, win0_3.index t 0 = t.val / 25 ∧ win0_3.index t 1 = 0 ∧ win0_3.index t 2 = 0 := by decide +kernel
theorem N50 : cfg0.N = 50 := N_0

abbrev blk0 (c : Dev nD) (t : Fin cfg0.N) : ((cfg0.win 0).xblock (cfg0.grid.coords t)).Idx → Elt Ideal (cfg0.win 0).elt :=
  ((cfg0.win 0).blk t).view.read (Elt Ideal) (V c (Pipeline.arrRef spec0 0))
abbrev blk1 (c : Dev nD) (t : Fin cfg0.N) : ((cfg0.win 1).xblock (cfg0.grid.coords t)).Idx → Elt Ideal (cfg0.win 1).elt :=
  ((cfg0.win 1).blk t).view.read (Elt Ideal) (V c (Pipeline.arrRef spec0 1))

-- Row r of block t is row 2000 t + r of the array, at the same column.
theorem blk0_apply (c : Dev nD) (t : Fin cfg0.N) (r : Fin 2000) (hlt : 2000 * t.val + r.val < 100000) :
    blk0 V c t (ix2 r (0 : Fin 1)) = segs V c (ix2 ⟨2000 * t.val + r.val, hlt⟩ (0 : Fin 1)) := by
  show V c main_v0 (((cfg0.win 0).blk t).view.emb (ix2 r (0 : Fin 1))) = _
  refine congrArg (V c main_v0) (funext fun a => Fin.ext ?_)
  match a with
  | ⟨0, _⟩ =>
    show ((win0_0.rect t).emb (ix2 r (0 : Fin 1)) 0 : Nat) = 2000 * t.val + r.val
    rw [Window.rect_emb_val, (idx0 t).1]
    show t.val * 2000 + r.val = _
    omega
  | ⟨1, _⟩ => exact win0_0.rect_emb_val_of_index_zero t 1 (idx0 t).2 _

theorem blk1_apply (c : Dev nD) (t : Fin cfg0.N) (r : Fin 2000) (h : Fin 512) (hlt : 2000 * t.val + r.val < 100000) :
    blk1 V c t (ix2 r h) = rows V c (ix2 ⟨2000 * t.val + r.val, hlt⟩ h) := by
  show V c main_arg0 (((cfg0.win 1).blk t).view.emb (ix2 r h)) = _
  refine congrArg (V c main_arg0) (funext fun a => Fin.ext ?_)
  match a with
  | ⟨0, _⟩ =>
    show ((win0_1.rect t).emb (ix2 r h) 0 : Nat) = 2000 * t.val + r.val
    rw [Window.rect_emb_val, (idx1 t).1]
    show t.val * 2000 + r.val = _
    omega
  | ⟨1, _⟩ => exact win0_1.rect_emb_val_of_index_zero t 1 (idx1 t).2 _

-- A step's sum over its block's rows is the sum of those rows' contributions.
theorem step_sum (c : Dev nD) (t : Fin cfg0.N) (j : Fin 128) (h : Fin 512) :
    (∑ r : Fin 2000, hot (blk0 V c t (ix2 r (0 : Fin 1))) j.val * blk1 V c t (ix2 r h))
      = ∑ r ∈ Finset.range 2000, term (segs V c) (rows V c) j.val h.val (2000 * t.val + r) := by
  rw [Finset.sum_range]
  refine Finset.sum_congr rfl fun r _ => ?_
  have ht : t.val < 50 := N50 ▸ t.isLt
  have hlt : 2000 * t.val + r.val < 100000 := by omega
  rw [term, dif_pos hlt, dif_pos h.isLt, blk0_apply V c t r hlt, blk1_apply V c t r h hlt]

theorem step_sumC (c : Dev nD) (t : Fin cfg0.N) (j : Fin 128) :
    (∑ r : Fin 2000, hot (blk0 V c t (ix2 r (0 : Fin 1))) j.val)
      = ∑ r ∈ Finset.range 2000, termC (segs V c) j.val (2000 * t.val + r) := by
  rw [Finset.sum_range]
  refine Finset.sum_congr rfl fun r _ => ?_
  have ht : t.val < 50 := N50 ▸ t.isLt
  have hlt : 2000 * t.val + r.val < 100000 := by omega
  rw [termC, dif_pos hlt, blk0_apply V c t r hlt]

section Run
variable (c : Dev nD) (D : Dat τ (Elt Ideal) Unit ℕ (UR sig nD τ) ℕ cfg0 c)
variable (outs : (n : ℕ) → n < cfg0.N → Vec Ideal S1x128x512 .f32 × Vec Ideal S1x1x128 .f32 × Vec Ideal S128x512 .f32 × Vec Ideal S1x128 .f32)

-- The step equations for what the two output blocks and the two accumulators hold after each point.
structure Steps : Prop where
  after2 : ∀ t : Fin cfg0.N, D.after 2 t = (outs t.val t.isLt).1
  after3 : ∀ t : Fin cfg0.N, D.after 3 t = (outs t.val t.isLt).2.1
  first : ∀ t : Fin cfg0.N, t.val % 25 = 0 →
    (outs t.val t.isLt).2.2 = (Hand.poolAcc0 (blk0 V c t) (blk1 V c t), Hand.poolCnt0 (blk0 V c t))
  step : ∀ t : Fin cfg0.N, t.val % 25 ≠ 0 →
    (outs t.val t.isLt).2.2
      = (Hand.poolAcc (blk0 V c t) (blk1 V c t) (outs (t.val - 1) (Nat.lt_of_le_of_lt (Nat.sub_le _ _) t.isLt)).2.2.1,
         Hand.poolCnt (blk0 V c t) (outs (t.val - 1) (Nat.lt_of_le_of_lt (Nat.sub_le _ _) t.isLt)).2.2.2)
  last : ∀ t : Fin cfg0.N, t.val % 25 = 24 →
    (outs t.val t.isLt).1 = Hand.poolOutSum (outs t.val t.isLt).2.2.1
      ∧ (outs t.val t.isLt).2.1 = Hand.poolOutCnt (outs t.val t.isLt).2.2.2

variable {V c D outs}

-- A reading π of the two accumulators that is 0 on zeros and to which each step adds its block's rows of f is, at a half's last point, the half's 50000 rows of f.
theorem fold (S : Steps V c D outs) (π : Vec Ideal S128x512 .f32 × Vec Ideal S1x128 .f32 → EReal) (f : ℕ → EReal)
    (hz : π (k0_pay1 (F := Ideal), k0_pay2 (F := Ideal)) = 0)
    (hs : ∀ (t : Fin cfg0.N) p, π (Hand.poolAcc (blk0 V c t) (blk1 V c t) p.1, Hand.poolCnt (blk0 V c t) p.2) = π p + ∑ r ∈ Finset.range 2000, f (2000 * t.val + r))
    (t : Fin cfg0.N) (h24 : t.val % 25 = 24) :
    π (outs t.val t.isLt).2.2 = ∑ k ∈ Finset.range 50000, f (50000 * (t.val / 25) + k) := by
  have ht : t.val < 50 := N50 ▸ t.isLt
  have e := fold_steps f (fun n => if hn : n < cfg0.N then π (outs n hn).2.2 else 0)
    (fun n hn h => by
      have hN : n < cfg0.N := N50 ▸ hn
      rw [dif_pos hN, S.first ⟨n, hN⟩ h]
      exact (hs ⟨n, hN⟩ (k0_pay1 (F := Ideal), k0_pay2 (F := Ideal))).trans ((congrArg (· + _) hz).trans (zero_add _)))
    (fun n hn h => by
      have hN : n < cfg0.N := N50 ▸ hn
      rw [dif_pos hN, dif_pos (by omega), S.step ⟨n, hN⟩ h]
      exact hs ⟨n, hN⟩ _)
    (t.val / 25) 24 (by omega) (by omega)
  rw [show 25 * (t.val / 25) + 24 = t.val by omega] at e
  rw [dif_pos t.isLt] at e
  exact e

variable (V c)

def G2 : Vec Ideal S2x128x512 .f32 := fun i =>
  ∑ k ∈ Finset.range 50000, term (segs V c) (rows V c) (i 1).val (i 2).val (50000 * (i 0).val + k)
def G3 : Vec Ideal S2x1x128 .f32 := fun i =>
  ∑ k ∈ Finset.range 50000, termC (segs V c) (i 2).val (50000 * (i 0).val + k)

variable {V c}

theorem read_blk2 (G : Vec Ideal S2x128x512 .f32) (t : Fin cfg0.N) (y : ((cfg0.win 2).xblock (cfg0.grid.coords t)).Idx) :
    ((cfg0.win 2).blk t).view.read (Elt Ideal) G y = G (((cfg0.win 2).blk t).view.emb y) := rfl
theorem read_blk3 (G : Vec Ideal S2x1x128 .f32) (t : Fin cfg0.N) (y : ((cfg0.win 3).xblock (cfg0.grid.coords t)).Idx) :
    ((cfg0.win 3).blk t).view.read (Elt Ideal) G y = G (((cfg0.win 3).blk t).view.emb y) := rfl

-- Entry (0, j, h) of the block of point t is entry (t / 25, j, h) of the array.
theorem emb2 (t : Fin cfg0.N) (u : Fin 2) (hu : t.val / 25 = u.val) (u0 : Fin 1) (j : Fin 128) (h : Fin 512) :
    ((cfg0.win 2).blk t).view.emb (ix3 u0 j h) = ix3 u j h := by
  refine funext fun a => Fin.ext ?_
  match a with
  | ⟨0, _⟩ =>
    show ((win0_2.rect t).emb (ix3 u0 j h) 0 : Nat) = u.val
    rw [Window.rect_emb_val, (idx2 t).1]
    show t.val / 25 * 1 + u0.val = _
    omega
  | ⟨1, _⟩ => exact win0_2.rect_emb_val_of_index_zero t 1 (idx2 t).2.1 _
  | ⟨2, _⟩ => exact win0_2.rect_emb_val_of_index_zero t 2 (idx2 t).2.2 _

theorem emb3 (t : Fin cfg0.N) (u : Fin 2) (hu : t.val / 25 = u.val) (u0 v0 : Fin 1) (j : Fin 128) :
    ((cfg0.win 3).blk t).view.emb (ix3 u0 v0 j) = ix3 u v0 j := by
  refine funext fun a => Fin.ext ?_
  match a with
  | ⟨0, _⟩ =>
    show ((win0_3.rect t).emb (ix3 u0 v0 j) 0 : Nat) = u.val
    rw [Window.rect_emb_val, (idx3 t).1]
    show t.val / 25 * 1 + u0.val = _
    omega
  | ⟨1, _⟩ => exact win0_3.rect_emb_val_of_index_zero t 1 (idx3 t).2.1 _
  | ⟨2, _⟩ => exact win0_3.rect_emb_val_of_index_zero t 2 (idx3 t).2.2 _

-- At a half's last point the output block holds its block of `G2` (of `G3`): the fold at the half's 25th step.
theorem flushed2 (S : Steps V c D outs) (t : Fin cfg0.N) (hf : (cfg0.win 2).flush t = true) :
    D.flushed 2 t = ((cfg0.win 2).blk t).view.read (Elt Ideal) (G2 V c) := by
  have h24 : t.val % 25 = 24 := (flush0_2 t).mp hf
  have ht : t.val < 50 := N50 ▸ t.isLt
  have hu : t.val / 25 < 2 := by omega
  funext y
  obtain ⟨u0, j, h, rfl⟩ : ∃ (u0 : Fin 1) (j : Fin 128) (h : Fin 512), y = ix3 u0 j h :=
    ⟨_, _, _, eq_ix3 (n0 := 1) (n1 := 128) (n2 := 512) y⟩
  rw [read_blk2, emb2 t ⟨_, hu⟩ rfl u0 j h, show D.flushed 2 t (ix3 u0 j h) = D.after 2 t (ix3 u0 j h) from rfl, S.after2 t, (S.last t h24).1, poolOutSum_apply]
  exact fold S (fun p => p.1 (ix2 j h)) (term (segs V c) (rows V c) j.val h.val) (pay1_apply (ix2 j h))
    (fun t p => (poolAcc_apply ..).trans (congrArg (_ + ·) (step_sum V c t j h))) t h24

theorem flushed3 (S : Steps V c D outs) (t : Fin cfg0.N) (hf : (cfg0.win 3).flush t = true) :
    D.flushed 3 t = ((cfg0.win 3).blk t).view.read (Elt Ideal) (G3 V c) := by
  have h24 : t.val % 25 = 24 := (flush0_3 t).mp hf
  have ht : t.val < 50 := N50 ▸ t.isLt
  have hu : t.val / 25 < 2 := by omega
  funext y
  obtain ⟨u0, v0, j, rfl⟩ : ∃ (u0 v0 : Fin 1) (j : Fin 128), y = ix3 u0 v0 j :=
    ⟨_, _, _, eq_ix3 (n0 := 1) (n1 := 1) (n2 := 128) y⟩
  rw [read_blk3, emb3 t ⟨_, hu⟩ rfl u0 v0 j, show D.flushed 3 t (ix3 u0 v0 j) = D.after 3 t (ix3 u0 v0 j) from rfl, S.after3 t, (S.last t h24).2, poolOutCnt_apply, Subsingleton.elim v0 0]
  exact fold S (fun p => p.2 (ix2 (0 : Fin 1) j)) (termC (segs V c) j.val) (pay2_apply (ix2 0 j))
    (fun t p => (poolCnt_apply ..).trans (congrArg (_ + ·) (step_sumC V c t j))) t h24

theorem arr2_apply (S : Steps V c D outs) (u : Fin 2) (j : Fin 128) (h : Fin 512) :
    D.arrAt 2 cfg0.N (ix3 u j h) = ∑ k ∈ Finset.range 50000, term (segs V c) (rows V c) j.val h.val (50000 * u.val + k) := by
  have ht : 25 * u.val + 24 < cfg0.N := by rw [N50]; omega
  have he := emb2 ⟨_, ht⟩ u (by show (25 * u.val + 24) / 25 = u.val; omega) 0 j h
  exact D.arrAt_apply_of_mem 2 (G2 V c) (fun t => flushed2 S t) cfg0.N ⟨_, ht⟩ _ ht
    ((flush0_2 _).mpr (by show (25 * u.val + 24) % 25 = 24; omega)) (by rw [← he]; exact View.emb_mem_set _ _)

theorem arr3_apply (S : Steps V c D outs) (u : Fin 2) (v : Fin 1) (j : Fin 128) :
    D.arrAt 3 cfg0.N (ix3 u v j) = ∑ k ∈ Finset.range 50000, termC (segs V c) j.val (50000 * u.val + k) := by
  have ht : 25 * u.val + 24 < cfg0.N := by rw [N50]; omega
  have he := emb3 ⟨_, ht⟩ u (by show (25 * u.val + 24) / 25 = u.val; omega) 0 v j
  exact D.arrAt_apply_of_mem 3 (G3 V c) (fun t => flushed3 S t) cfg0.N ⟨_, ht⟩ _ ht
    ((flush0_3 _).mpr (by show (25 * u.val + 24) % 25 = 24; omega)) (by rw [← he]; exact View.emb_mem_set _ _)

end Run

end Cert.KernelIdeal.PoolValue

end
-- ==== Proof.PoolSteps.lean ====
import proofs.«419202_j25975962206499_3_alg».proof.Proof.PoolData
import proofs.«419202_j25975962206499_3_alg».proof.Proof.Blocks
import Idealize.ShloMosaic.Lib.Pipeline.Value

set_option maxRecDepth 16384

noncomputable section

namespace Cert.KernelIdeal.Pool

open Idealize.ShloMosaic Idealize.ShloMosaic.TcCoe Idealize.ShloMosaic.Tactic Idealize.SL Idealize.SL.Sem
open Cert.KernelIdeal Cert.KernelIdeal.Gen

variable {F : FTy → Type} [FloatOps F]

variable (V : (c : Dev nD) → (b : Ref sig .tc) → Buf (Elt F) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

section
variable {c : Dev nD} {i : grid0.Coords} {arg2 : Memref sig .tc .vmem S2000x1 .i32} {harg2 : arg2.IsWhole} {arg3 : Memref sig .tc .vmem S2000x512 .f32} {harg3 : arg3.IsWhole} {arg4 : Memref sig .tc .vmem S1x128x512 .f32} {harg4 : arg4.IsWhole} {arg5 : Memref sig .tc .vmem S1x1x128 .f32} {harg5 : arg5.IsWhole} {arg6 : Memref sig .tc .vmem S128x512 .f32} {harg6 : arg6.IsWhole} {arg7 : Memref sig .tc .vmem S1x128 .f32} {harg7 : arg7.IsWhole} {x0 : Vec F S2000x1 .i32} {x1 : Vec F S2000x512 .f32} {xs0 : Vec F S128x512 .f32} {xs1 : Vec F S1x128 .f32}

-- At a half's first point the two accumulators are one step from zeros; at a middle point, one step from what they held.
theorem runA_eq {hc0 : condFirst i} {hc1 : ¬condLast i} :
    (acc_A c i arg2 harg2 arg3 harg3 arg4 harg4 arg5 harg5 arg6 harg6 arg7 harg7 hc0 hc1 x0 x1, cnt_A c i arg2 harg2 arg3 harg3 arg4 harg4 arg5 harg5 arg6 harg6 arg7 harg7 hc0 hc1 x0 x1) = (k0_pay4 x0 x1 (k0_pay1 (F := F)), k0_pay5 x0 (k0_pay2 (F := F))) := by
  unfold acc_A cnt_A
  rw [View.read_writes_eq_canon _ _ _ fun _ => cover_A_acc .., View.read_writes_eq_canon _ _ _ fun _ => cover_A_cnt ..]
  unfold kernelRun_A; dsimp only
  sl_unfold_words
  rw [View.canon_cons_unit_zero (S := S128x512) hz2, View.readCov_unit_zero (S := S128x512) _ hz2, View.canon_cons_unit_zero (S := S1x128) hz2, View.readCov_unit_zero (S := S1x128) _ hz2]
  simp only [View.readAt_eq_ld, harg2.read_unread, harg3.read_unread, harg6.read_unread, harg7.read_unread, View.ld_unit_zero (S := S2000x1) hz2, View.ld_unit_zero (S := S2000x512) hz2, View.ld_unit_zero (S := S128x512) hz2, View.ld_unit_zero (S := S1x128) hz2]

theorem runB_eq {hc0 : ¬condFirst i} {hc1 : ¬condLast i} :
    (acc_B c i arg2 harg2 arg3 harg3 arg4 harg4 arg5 harg5 arg6 harg6 arg7 harg7 hc0 hc1 x0 x1 xs0 xs1, cnt_B c i arg2 harg2 arg3 harg3 arg4 harg4 arg5 harg5 arg6 harg6 arg7 harg7 hc0 hc1 x0 x1 xs0 xs1) = (k0_pay4 x0 x1 xs0, k0_pay5 x0 xs1) := by
  unfold acc_B cnt_B
  rw [View.read_writes_eq_canon _ _ _ fun _ => cover_B_acc .., View.read_writes_eq_canon _ _ _ fun _ => cover_B_cnt ..]
  unfold kernelRun_B; dsimp only
  sl_unfold_words
  rw [View.canon_unit_zero (S := S128x512) hz2, View.canon_unit_zero (S := S1x128) hz2]
  simp only [View.readAt_eq_ld, harg2.read_unread, harg3.read_unread, harg6.read_unread, harg7.read_unread, View.ld_unit_zero (S := S2000x1) hz2, View.ld_unit_zero (S := S2000x512) hz2, View.ld_unit_zero (S := S128x512) hz2, View.ld_unit_zero (S := S1x128) hz2]

-- A half's last point steps as a middle one and then re-lays the two accumulators into the output blocks.
theorem runC_eq {hc0 : ¬condFirst i} {hc1 : condLast i} :
    (out2_C c i arg2 harg2 arg3 harg3 arg4 harg4 arg5 harg5 arg6 harg6 arg7 harg7 hc0 hc1 x0 x1 xs0 xs1, out3_C c i arg2 harg2 arg3 harg3 arg4 harg4 arg5 harg5 arg6 harg6 arg7 harg7 hc0 hc1 x0 x1 xs0 xs1, acc_C c i arg2 harg2 arg3 harg3 arg4 harg4 arg5 harg5 arg6 harg6 arg7 harg7 hc0 hc1 x0 x1 xs0 xs1, cnt_C c i arg2 harg2 arg3 harg3 arg4 harg4 arg5 harg5 arg6 harg6 arg7 harg7 hc0 hc1 x0 x1 xs0 xs1) = (k0_pay6 (k0_pay4 x0 x1 xs0), k0_pay7 (k0_pay5 x0 xs1), k0_pay4 x0 x1 xs0, k0_pay5 x0 xs1) := by
  unfold out2_C out3_C acc_C cnt_C
  rw [View.read_writes_eq_canon _ _ _ fun _ => cover_C_out2 .., View.read_writes_eq_canon _ _ _ fun _ => cover_C_out3 .., View.read_writes_eq_canon _ _ _ fun _ => cover_C_acc .., View.read_writes_eq_canon _ _ _ fun _ => cover_C_cnt ..]
  unfold kernelRun_C; dsimp only
  sl_unfold_words
  rw [View.canon_unit_zero (S := S1x128x512) hz3, View.canon_unit_zero (S := S1x1x128) hz3, View.canon_unit_zero (S := S128x512) hz2, View.canon_unit_zero (S := S1x128) hz2, View.readCov_unit_zero (S := S128x512) _ hz2, View.readCov_unit_zero (S := S1x128) _ hz2]
  simp only [View.readAt_eq_ld, harg2.read_unread, harg3.read_unread, harg6.read_unread, harg7.read_unread, View.ld_unit_zero (S := S2000x1) hz2, View.ld_unit_zero (S := S2000x512) hz2, View.ld_unit_zero (S := S128x512) hz2, View.ld_unit_zero (S := S1x128) hz2]

end

theorem outsAt_first (c : Dev nD) (t : Fin cfg0.N) (h : t.val % 25 = 0) :
    (outsAt V c t.val t.isLt).2.2 = (Hand.poolAcc0 (iblk V c 0 t) (iblk V c 1 t), Hand.poolCnt0 (iblk V c 0 t)) := by
  rw [outsAt_A V c t h (by omega)]
  exact runA_eq (F := F)

theorem outsAt_step (c : Dev nD) (t : Fin cfg0.N) (h : t.val % 25 ≠ 0) :
    (outsAt V c t.val t.isLt).2.2 = (Hand.poolAcc (iblk V c 0 t) (iblk V c 1 t) (outsAt V c (t.val - 1) (Nat.lt_of_le_of_lt (Nat.sub_le _ _) t.isLt)).2.2.1, Hand.poolCnt (iblk V c 0 t) (outsAt V c (t.val - 1) (Nat.lt_of_le_of_lt (Nat.sub_le _ _) t.isLt)).2.2.2) := by
  by_cases h1 : t.val % 25 = 24
  · rw [outsAt_C V c t h h1]
    exact congrArg (·.2.2) (runC_eq (F := F))
  · rw [outsAt_B V c t h h1]
    exact runB_eq (F := F)

theorem outsAt_last (c : Dev nD) (t : Fin cfg0.N) (h : t.val % 25 = 24) :
    (outsAt V c t.val t.isLt).1 = Hand.poolOutSum (outsAt V c t.val t.isLt).2.2.1 ∧ (outsAt V c t.val t.isLt).2.1 = Hand.poolOutCnt (outsAt V c t.val t.isLt).2.2.2 := by
  rw [outsAt_C V c t (by omega) h, show atC V c t _ _ _ _ = _ from runC_eq (F := F)]
  exact ⟨rfl, rfl⟩

end Cert.KernelIdeal.Pool

end
-- ==== Proof.LibWord.lean ====
import Idealize.ShloMosaic.Lib.StableHlo.Predicate
import Idealize.ShloMosaic.Lib.ValueIdx

namespace Cert.LibWord

open Idealize.ShloMosaic Idealize.ShloMosaic.StableHlo.Predicate Idealize.ShloMosaic.ValueIdx

/-- A word below 2³¹ is not negative, so the wrap of a negative index (`if a < 0 then a + k else a`) leaves it alone. -/
theorem wrapNeg (a k : BitVec 32) (ha : a.toNat < 2 ^ 31) :
    Scalar.select (IntOp.cmpi .slt a 0#32) (IntOp.addi a k) a = a := by
  rw [eq_zero_of_ne_one fun h => Nat.not_lt_zero _ ((slt_iff_toNat ha (by decide)).mp h), select_zero]

end Cert.LibWord
-- ==== Proof.LibGather.lean ====
import Idealize.ShloMosaic.Lib.ValueIdx
import Idealize.ShloMosaic.PureOps.ShapeOps

namespace Cert.LibGather

open Idealize.ShloMosaic Idealize.ShloMosaic.ValueIdx

/-- A gather of rows (`y[idx]`): result (r, c) reads the operand at (row `idx r` clamped to [0, N − 1], c). -/
theorem gather_rows {α : Type} {N R C w : Nat} (d : GatherDims ⟨2, ![N, C]⟩ ⟨2, ![R, 1]⟩ ⟨2, ![R, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![R, 1]⟩ w) (r : Fin R) (c : Fin C) (hN : 0 < N) :
    Host.gather d x idx (ix2 r c) = x (ix2 ⟨min (idx (ix2 r (0 : Fin 1))).toInt.toNat (N - 1), by omega⟩ c) := by
  obtain ⟨od, cd, ob, sb, sm, iv, ss, wf⟩ := d
  simp only at hoff hcoll hob hsim hivd
  subst hoff hcoll hob hsim hivd
  unfold Host.gather
  congr 1
  funext a
  apply Fin.ext
  match a with
  | ⟨0, _⟩ =>
    have hsl : ss 0 = 1 := wf.2.2.2.2.2.2.2.2.2.2.2.1 0 (List.mem_singleton.mpr rfl)
    show GatherDims.start _ _ _ 0 + GatherDims.batchCoord _ _ 0 + GatherDims.offCoord _ _ 0 = min _ _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx _).toInt.toNat (N - ss 0) = _
    rw [hsl]
    congr 3
    congr 1
    funext b
    apply Fin.ext
    match b with
    | ⟨0, _⟩ => rfl
    | ⟨1, _⟩ => rfl
  | ⟨1, _⟩ =>
    show GatherDims.start _ _ _ 1 + GatherDims.batchCoord _ _ 1 + GatherDims.offCoord _ _ 1 = c.val
    rw [GatherDims.batchCoord_eq_zero _ _ _ List.not_mem_nil]
    unfold GatherDims.start
    rw [dif_neg (show (1 : Fin 2) ∉ [(0 : Fin 2)] by decide)]
    simp only [Nat.zero_add]
    rfl

end Cert.LibGather
-- ==== Proof.NodeBridge.lean ====
import proofs.«419202_j25975962206499_3_alg».proof.Proof.Blocks
import proofs.«419202_j25975962206499_3_alg».proof.Proof.Gen.ReferenceIdeal.Read
import proofs.«419202_j25975962206499_3_alg».proof.Proof.LibWord
import proofs.«419202_j25975962206499_3_alg».proof.Proof.LibGather
import proofs.«419202_j25975962206499_3_alg».proof.Proof.LibDotPlain
import proofs.«419202_j25975962206499_3_alg».proof.Proof.LibRow
import proofs.«419202_j25975962206499_3_alg».proof.Proof.LibColumn
import Idealize.ShloMosaic.Lib.ValueLayout
import Idealize.ShloMosaic.Lib.IdealHost

noncomputable section

namespace Cert.NodeBridge

open Idealize.ShloMosaic Idealize.ShloMosaic.ValueIdx Cert.LibRow Cert.LibColumn

/-- The equality test of two words, widened and converted, is 1 where they agree and 0 elsewhere. -/
theorem sitofp_eq_bit (a c : BitVec 32) :
    FloatOps.sitofp (F := Ideal) .f32 ((IntOp.cmpi .eq a c).setWidth 32) = if a = c then 1 else 0 := by
  by_cases h : a = c
  · rw [if_pos h, StableHlo.Predicate.cmpi_eq_iff.mpr h]
    show ((((1#1 : BitVec 1).setWidth 32).toInt : ℝ) : EReal) = 1
    rw [show ((1#1 : BitVec 1).setWidth 32).toInt = 1 by decide]; norm_cast
  · rw [if_neg h, eq_zero_of_ne_one (fun hc => h (StableHlo.Predicate.cmpi_eq_iff.mp hc))]
    show ((((0#1 : BitVec 1).setWidth 32).toInt : ℝ) : EReal) = 0
    rw [show ((0#1 : BitVec 1).setWidth 32).toInt = 0 by decide]; norm_cast

/-- A sum against the indicator of one position picks that position's term: distinct numbers below 128 are distinct words. -/
theorem onehot_sum (a : BitVec 32) (j : Fin 128) (ha : a = BitVec.ofNat 32 j.val) (V : Fin 128 → EReal) :
    ∑ q : Fin 128, (if a = BitVec.ofNat 32 q.val then (1 : EReal) else 0) * V q = V j := by
  rw [Finset.sum_eq_single j, if_pos ha, one_mul]
  · intro q _ hq
    have : ¬ a = BitVec.ofNat 32 q.val := fun h => hq (Fin.ext (by
      have := congrArg BitVec.toNat (h.symm.trans ha)
      simp only [BitVec.toNat_ofNat] at this
      omega))
    rw [if_neg this, zero_mul]
  · exact fun h => absurd (Finset.mem_univ j) h

section Ref
open Cert.ReferenceIdeal Cert.ReferenceIdeal.Read

abbrev RArr (s : Shape) (e : EltTy) : Type := (⟨s, e⟩ : BufTy).Contents (Elt Ideal)

variable (x0 : RArr S100000x512 .f32) (x1 : RArr S128x512 .f32) (x2 : RArr S1024x512 .f32) (x3 : RArr S512 .f32)
  (x4 : RArr S512x512 .f32) (x5 x6 x7 : RArr S512 .f32) (x8 : RArr S1024x512 .f32) (x9 : RArr S512 .f32)
  (x10 : RArr S512x512 .f32) (x11 x12 x13 : RArr S512 .f32) (x14 : RArr S100000 .i32)

/-- An id below 128 is not negative and at most 127, so neither the wrap of negative ids nor the clamp moves it. -/
theorem ref_gather (i : Fin 100000) (j : Fin 128) (hj : x14 (ix1 i) = BitVec.ofNat 32 j.val) (k : Fin 512) :
    val_main_v53 (F := Ideal) x0 x1 x2 x3 x4 x5 x6 x7 x14 (ix2 i k) = val_main_v46 (F := Ideal) x0 x1 x2 x3 x4 x5 x6 x7 x14 (ix2 j k) := by
  unfold val_main_v53
  refine (Cert.LibGather.gather_rows gather_S128x512_S100000x1_S100000x512_1_0_n_n_0_1_1512 rfl rfl rfl rfl rfl _ _ i k
    (by decide)).trans (congrArg _ (funext fun a => Fin.ext ?_))
  match a with
  | ⟨0, _⟩ =>
    have e : idx_main_v52 (ix2 i (0 : Fin 1)) = ix1 i := eq_ix1 _
    show min (BitVec.toInt (val_main_v52 (F := Ideal) x14 (ix2 i (0 : Fin 1)))).toNat (128 - 1) = j.val
    rw [val_main_v52_apply, e, val_main_v51_apply, val_main_v48_apply, val_main_v50_apply, val_main_v47_apply,
      val_main_v49_apply, val_main_c_apply, val_main_c_8_apply, hj,
      Cert.LibWord.wrapNeg (BitVec.ofNat 32 j.val) _ (by rw [BitVec.toNat_ofNat]; omega),
      StableHlo.Predicate.toInt_ofNat_small _ (by omega)]
    omega
  | ⟨1, _⟩ => rfl

/-- The reference's residual update of row i with the virtual node j its id names; a 1024-term product is the sum of its halves. -/
theorem ref_upd (i : Fin 100000) (j : Fin 128) (hj : x14 (ix1 i) = BitVec.ofNat 32 j.val) (h : Fin 512) :
    val_main_v64 (F := Ideal) x0 x1 x2 x3 x4 x5 x6 x7 x8 x9 x10 x11 x14 (ix2 i h)
      = rowUpd (fun q => x0 (ix2 i q)) (fun q => x0 (ix2 i q)) (fun q => val_main_v46 (F := Ideal) x0 x1 x2 x3 x4 x5 x6 x7 x14 (ix2 j q))
          (fun a q => x8 (ix2 (⟨a.val, by omega⟩ : Fin 1024) q)) (fun a q => x8 (ix2 (⟨512 + a.val, by omega⟩ : Fin 1024) q))
          (fun q => x9 (ix1 q)) (fun a q => x10 (ix2 a q)) (fun q => x11 (ix1 q)) h := by
  have el : ∀ q : Fin 512, lidx_main_v60 (ix2 i h) q = ix2 i q := fun q => eq_ix2 _
  have er : ∀ q : Fin 512, ridx_main_v60 (ix2 i h) q = ix2 q h := fun q => eq_ix2 _
  have e3 : idx_main_v61 (idx_main_v62 (ix2 i h)) = ix1 h := eq_ix1 _
  have el' : ∀ (k : Fin 512) (q : Fin 1024), lidx_main_v55 (ix2 i k) q = ix2 i q := fun k q => eq_ix2 _
  have er' : ∀ (k : Fin 512) (q : Fin 1024), ridx_main_v55 (ix2 i k) q = ix2 q k := fun k q => eq_ix2 _
  have e3' : ∀ k : Fin 512, idx_main_v56 (idx_main_v57 (ix2 i k)) = ix1 k := fun k => eq_ix1 _
  rw [val_main_v64_apply, val_main_v63_apply, val_main_v60_apply, val_main_v62_apply, val_main_v61_apply]
  simp only [el, er, e3, val_main_v59_apply, val_main_call1_v5_apply, val_main_call1_v4_apply, val_main_call1_cst_0_apply,
    val_main_call1_v3_apply, val_main_call1_v2_apply, val_main_call1_cst_apply, val_main_call1_v1_apply,
    val_main_call1_v0_apply, val_main_v58_apply, val_main_v55_apply, val_main_v57_apply, val_main_v56_apply, el', er', e3',
    sum_halves]
  unfold val_main_v54
  simp only [cat_first, cat_second, ref_gather x0 x1 x2 x3 x4 x5 x6 x7 x14 i j hj]
  unfold rowUpd silu rowPre
  simp only [Ideal.mulf_def, Ideal.hostDivf_def, Ideal.addf_def, Ideal.hostUnary_exp_def, Ideal.hostNegf_def,
    Ideal.negf_def, Ideal.ofBits_def, Ideal.ofBits_one_f32]

/-- The reference's row mean, wherever in row i it is read. -/
theorem ref_mean (i : Fin 100000) (p : S100000x1.Idx) (hp : (p 0).val = i.val) :
    val_main_v68 (F := Ideal) x0 x1 x2 x3 x4 x5 x6 x7 x8 x9 x10 x11 x14 p
      = rowMean (fun k => val_main_v64 (F := Ideal) x0 x1 x2 x3 x4 x5 x6 x7 x8 x9 x10 x11 x14 (ix2 i k)) (Ideal.ofBits .f32 0x44000000#32) := by
  rw [val_main_v68_apply, val_main_v66_apply, val_main_v65_apply, val_main_v67_apply, val_main_cst_10_apply,
    val_main_cst_9_apply]
  unfold rowMean
  simp only [Ideal.hostDivf_def, Ideal.ofBits_def, Ideal.ofBits_zero_f32, zero_add]
  refine congrArg (Ideal.div · _) (Finset.sum_congr rfl fun k _ => congrArg _ (funext fun a => Fin.ext ?_))
  match a with
  | ⟨0, _⟩ => exact hp
  | ⟨1, _⟩ => rfl

theorem ref_ln (i : Fin 100000) (h : Fin 512) :
    val_main_v88 (F := Ideal) x0 x1 x2 x3 x4 x5 x6 x7 x8 x9 x10 x11 x12 x13 x14 (ix2 i h)
      = rowLN (fun k => val_main_v64 (F := Ideal) x0 x1 x2 x3 x4 x5 x6 x7 x8 x9 x10 x11 x14 (ix2 i k)) (fun k => x12 (ix1 k)) (fun k => x13 (ix1 k))
          (Ideal.ofBits .f32 0x44000000#32) (Ideal.ofBits .f32 0x3727C5AC#32) h := by
  have hm := fun p hp => ref_mean x0 x1 x2 x3 x4 x5 x6 x7 x8 x9 x10 x11 x14 i p hp
  simp only [val_main_v88_apply, val_main_v85_apply, val_main_v82_apply, val_main_v77_apply, val_main_v76_apply,
    val_main_v81_apply, val_main_v80_apply, val_main_v79_apply, val_main_v75_apply, val_main_v73_apply,
    val_main_v72_apply, val_main_v71_apply, val_main_v70_apply, val_main_v69_apply, val_main_v74_apply,
    val_main_v78_apply, val_main_cst_12_apply, val_main_cst_13_apply, val_main_cst_11_apply, val_main_v84_apply,
    val_main_v83_apply, val_main_v87_apply, val_main_v86_apply,
    Ideal.addf_def, Ideal.mulf_def, Ideal.subf_def, Ideal.hostDivf_def, Ideal.hostUnary_rsqrt_def, Ideal.ofBits_def,
    Ideal.ofBits_zero_f32, zero_add]
  unfold rowLN rowSqdev
  refine congrArg₂ (· + ·) (congrArg₂ (· * ·) (congrArg₂ (· * ·) (congrArg₂ (· - ·) rfl (hm _ rfl))
      (congrArg Ideal.rsqrt (congrArg (· + _) (congrArg (Ideal.div · _) (Finset.sum_congr rfl fun k _ => ?_)))))
      (congrArg x12 (eq_ix1 _))) (congrArg x13 (eq_ix1 _))
  have e : idx_main_v72 (idx_main_v73 (idx_main_v81 (ix2 i h))) k = ix2 i k := eq_ix2 _
  rw [e]
  exact congrArg₂ (· * ·) (congrArg₂ (· - ·) rfl (hm _ rfl)) (congrArg₂ (· - ·) rfl (hm _ rfl))

end Ref

section Ker

open Cert.KernelIdeal Cert.KernelIdeal.Gen

/-- A row total kept as a column: entry (r, 0) of the column is the sum of row r. -/
theorem colSum_apply (y : FVec Ideal S1000x512 .f32) (r : Fin 1000) (u : Fin 1) :
    shapeCast S1000x1 (multiReduction .add [1] S1000 y 0x00000000#32 reduces_S1000x512_S1000 (.inl rfl) rfl)
        shapeCasts_S1000_S1000x1 (ix2 r u) = ∑ k : Fin 512, y (ix2 r k) :=
  (shapeCast_a_a1_apply _ _ r u).trans (rowSum_apply y _ _ _ r)

theorem pay1_apply (y : FVec Ideal S1000x512 .f32) (g be : Vec Ideal S1x512 .f32) (r : Fin 1000) (h : Fin 512) :
    k2_pay1 y g be (ix2 r h)
      = rowLN (fun k => y (ix2 r k)) (fun k => g (ix2 (0 : Fin 1) k)) (fun k => be (ix2 (0 : Fin 1) k))
          (Ideal.ofBits .f32 0x44000000#32) (Ideal.ofBits .f32 0x3727C5AC#32) h := by
  unfold k2_pay1
  simp only [addf_apply, mulf_apply, subf_apply, divf_apply, rsqrt_apply, broadcastTo_a1_ab_apply,
    broadcastTo_1b_ab_apply, shapeCast_self, broadcast_apply]
  rw [colSum_apply, colSum_apply]
  simp only [mulf_apply, subf_apply, divf_apply, broadcastTo_a1_ab_apply, broadcast_apply]
  rw [colSum_apply]
  rfl

theorem cmpi_apply {s : Shape} {w : Nat} (p : CmpIPredicate) (a c : IVec s w) (i : s.Idx) :
    cmpi p a c i = IntOp.cmpi p (a i) (c i) := rfl

/-- The one-hot row of the id times the virtual nodes is the virtual node the id names, so the block's update is the row's update. -/
theorem pay2_apply (x : Vec Ideal S1000x512 .f32) (b : Vec Ideal S1000x1 .i32) (vnn : Vec Ideal S128x512 .f32)
    (w3a w3b : Vec Ideal S512x512 .f32) (b3 : Vec Ideal S1x512 .f32) (w4 : Vec Ideal S512x512 .f32) (b4 : Vec Ideal S1x512 .f32)
    (r : Fin 1000) (j : Fin 128) (hj : b (ix2 r (0 : Fin 1)) = BitVec.ofNat 32 j.val) (h : Fin 512) :
    k2_pay2 x b vnn w3a w3b b3 w4 b4 (ix2 r h)
      = rowUpd (fun k => x (ix2 r k)) (fun k => x (ix2 r k)) (fun k => vnn (ix2 j k)) (fun a k => w3a (ix2 a k)) (fun a k => w3b (ix2 a k))
          (fun k => b3 (ix2 (0 : Fin 1) k)) (fun a k => w4 (ix2 a k)) (fun k => b4 (ix2 (0 : Fin 1) k)) h := by
  have hi : ∀ q : Fin 128, iota .tc S1000x128 32 [1] iota_S1000x128_d1_w32 (ix2 r q) = BitVec.ofNat 32 q.val :=
    fun q => iota_single_apply .tc S1000x128 32 1 iota_S1000x128_d1_w32 (ix2 r q)
  unfold k2_pay2
  rw [show dot_S1000x512_S512x512_S1000x512_1_0_0_1_n_n = DotDims.plain 1000 512 512 from rfl,
    show dot_S1000x128_S128x512_S1000x512_1_0_0_1_n_n = DotDims.plain 1000 128 512 from rfl]
  simp only [addf_apply, mulf_apply, Cert.LibDot.mm_plain, truncf_apply, shapeCast_self, logistic_apply,
    broadcastTo_1b_ab_apply, sitofp_apply, extui_apply, cmpi_apply, broadcastTo_a1_ab_apply, hi, hj, sitofp_eq_bit,
    onehot_sum _ j rfl]
  rfl

end Ker

/-- Row r of block t, as a row of the whole array: row 1000 t + r. -/
def rowOf (t : Fin 100) (r : Fin 1000) : Fin 100000 :=
  ⟨1000 * t.val + r.val, by have := t.isLt; have := r.isLt; omega⟩

/-- One block of the node region is the reference on the block's rows: the layer norm of the row's residual update on both sides. -/
theorem node_bridge
    (x0 : RArr Cert.ReferenceIdeal.S100000x512 .f32) (x1 : RArr Cert.ReferenceIdeal.S128x512 .f32) (x2 : RArr Cert.ReferenceIdeal.S1024x512 .f32)
    (x3 : RArr Cert.ReferenceIdeal.S512 .f32) (x4 : RArr Cert.ReferenceIdeal.S512x512 .f32) (x5 x6 x7 : RArr Cert.ReferenceIdeal.S512 .f32)
    (x8 : RArr Cert.ReferenceIdeal.S1024x512 .f32) (x9 : RArr Cert.ReferenceIdeal.S512 .f32) (x10 : RArr Cert.ReferenceIdeal.S512x512 .f32)
    (x11 x12 x13 : RArr Cert.ReferenceIdeal.S512 .f32) (x14 : RArr Cert.ReferenceIdeal.S100000 .i32)
    (t : Fin 100)
    (xblk : Vec Ideal Cert.KernelIdeal.S1000x512 .f32) (bblk : Vec Ideal Cert.KernelIdeal.S1000x1 .i32) (vnn : Vec Ideal Cert.KernelIdeal.S128x512 .f32)
    (w3a w3b : Vec Ideal Cert.KernelIdeal.S512x512 .f32) (b3 : Vec Ideal Cert.KernelIdeal.S1x512 .f32) (w4 : Vec Ideal Cert.KernelIdeal.S512x512 .f32)
    (b4 g be : Vec Ideal Cert.KernelIdeal.S1x512 .f32)
    (hx : ∀ (r : Fin 1000) (h : Fin 512), xblk (ix2 r h) = x0 (ix2 (rowOf t r) h))
    (hb : ∀ r : Fin 1000, bblk (ix2 r (0 : Fin 1)) = x14 (ix1 (rowOf t r)))
    (hvnn : vnn = Cert.ReferenceIdeal.Read.val_main_v46 (F := Ideal) x0 x1 x2 x3 x4 x5 x6 x7 x14)
    (hw3a : ∀ a k : Fin 512, w3a (ix2 a k) = x8 (ix2 (⟨a.val, by omega⟩ : Fin 1024) k))
    (hw3b : ∀ a k : Fin 512, w3b (ix2 a k) = x8 (ix2 (⟨512 + a.val, by omega⟩ : Fin 1024) k))
    (hb3 : ∀ k : Fin 512, b3 (ix2 (0 : Fin 1) k) = x9 (ix1 k))
    (hw4 : w4 = x10)
    (hb4 : ∀ k : Fin 512, b4 (ix2 (0 : Fin 1) k) = x11 (ix1 k))
    (hg : ∀ k : Fin 512, g (ix2 (0 : Fin 1) k) = x12 (ix1 k))
    (hbe : ∀ k : Fin 512, be (ix2 (0 : Fin 1) k) = x13 (ix1 k))
    (hrange : ∀ i : Fin 100000, BitVec.toNat (x14 (ix1 i)) < 128) :
    ∀ (r : Fin 1000) (h : Fin 512),
      Cert.KernelIdeal.Hand.nodeBlock xblk bblk vnn w3a w3b b3 w4 b4 g be (ix2 r h)
        = Cert.ReferenceIdeal.Read.val_main_v88 (F := Ideal) x0 x1 x2 x3 x4 x5 x6 x7 x8 x9 x10 x11 x12 x13 x14 (ix2 (rowOf t r) h) := by
  intro r h
  have hlt := hrange (rowOf t r)
  have hj : x14 (ix1 (rowOf t r)) = BitVec.ofNat 32 (⟨_, hlt⟩ : Fin 128).val :=
    ((BitVec.ofNat_toNat 32 _).trans (BitVec.setWidth_eq _)).symm
  generalize (⟨_, hlt⟩ : Fin 128) = j at hj
  have hrow : (fun k => Cert.KernelIdeal.Gen.k2_pay2 xblk bblk vnn w3a w3b b3 w4 b4 (ix2 r k))
      = fun k => Cert.ReferenceIdeal.Read.val_main_v64 (F := Ideal) x0 x1 x2 x3 x4 x5 x6 x7 x8 x9 x10 x11 x14 (ix2 (rowOf t r) k) := by
    funext k
    rw [pay2_apply xblk bblk vnn w3a w3b b3 w4 b4 r j ((hb r).trans hj) k, ref_upd x0 x1 x2 x3 x4 x5 x6 x7 x8 x9 x10 x11 x14 (rowOf t r) j hj k]
    simp only [hx, hw3a, hw3b, hb3, hb4, hvnn, hw4]
  unfold Cert.KernelIdeal.Hand.nodeBlock
  rw [pay1_apply, ref_ln, hrow]
  simp only [hg, hbe]

end Cert.NodeBridge

end
-- ==== Proof.Final.lean ====
import proofs.«419202_j25975962206499_3_alg».proof.Proof.StageVn
import proofs.«419202_j25975962206499_3_alg».proof.Proof.StageNodeArr
import proofs.«419202_j25975962206499_3_alg».proof.Proof.PoolBridge
import proofs.«419202_j25975962206499_3_alg».proof.Proof.PoolValue
import proofs.«419202_j25975962206499_3_alg».proof.Proof.PoolSteps
import proofs.«419202_j25975962206499_3_alg».proof.Proof.NodeBridge
import proofs.«419202_j25975962206499_3_alg».proof.Proof.PreFacts
import proofs.«419202_j25975962206499_3_alg».proof.Proof.HostAt

set_option maxRecDepth 16384

noncomputable section

namespace Cert.Final

open Idealize.ShloMosaic Idealize.ShloMosaic.TcCoe Idealize.ShloMosaic.ValueIdx Idealize.SL.Sem
open Cert.KernelIdeal Cert.KernelIdeal.Gen

variable [hF : Cert.Pre_finite_inputs.Facts]

theorem pool_steps (m : (ℓ : Loc nD τ sig) → Buf (Elt Ideal) ℓ) (c : Dev nD) :
    PoolValue.Steps (Launch.E1 m) c (Pool.dat (Launch.E1 m) c) (Pool.outsAt (Launch.E1 m) c) :=
  ⟨Pool.after_2 (Launch.E1 m) c, Pool.after_3 (Launch.E1 m) c, Pool.outsAt_first (Launch.E1 m) c,
    Pool.outsAt_step (Launch.E1 m) c, Pool.outsAt_last (Launch.E1 m) c⟩

-- The pooled means entering the second region are the reference's segment means: each half's output sums its rows, and every id lies below 128.
theorem pool (m : (ℓ : Loc nD τ sig) → Buf (Elt Ideal) ℓ) (hpre : Cert.Pre_KernelIdeal m) (c : Dev Cert.KernelIdeal.nD) :
    HostValues.nodeMean ((Pool.dat (Launch.E1 m) c).arrAt 2 cfg0.N) ((Pool.dat (Launch.E1 m) c).arrAt 3 cfg0.N)
      = Cert.ReferenceIdeal.Read.val_main_v11 (F := Ideal) (m ((c : Thread nD τ).loc main_arg0)) (m ((c : Thread nD τ).loc main_arg14)) :=
  Cert.PoolBridge.pool_bridge _ _ (Launch.E1 m c main_v0) (Launch.E1 m c main_arg0) _ _
    (fun u j h => PoolValue.arr2_apply (pool_steps m c) u j h)
    (fun u v j => PoolValue.arr3_apply (pool_steps m c) u v j)
    (fun i => (congrFun (HostValues.V1_v0 m c) (ix2 i (0 : Fin 1))).trans (HostValues.asCol_apply _ i 0))
    (HostValues.V1_arg0 m c)
    (fun i => Cert.PreFacts.batch_toNat_lt (hpre c) i)

theorem vn_new (m : (ℓ : Loc nD τ sig) → Buf (Elt Ideal) ℓ) (hpre : Cert.Pre_KernelIdeal m) (c : Dev Cert.KernelIdeal.nD) :
    (Gen.V6 m (Launch.outs m) c main_v25 : S128x512.Idx → EReal)
      = Cert.ReferenceIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg14)) :=
  Stage.vn_result m hpre c (pool m hpre c)

-- Each block of a thousand rows of the third region's block function is the reference's result on those rows.
theorem x_new (m : (ℓ : Loc nD τ sig) → Buf (Elt Ideal) ℓ) (hpre : Cert.Pre_KernelIdeal m) (c : Dev Cert.KernelIdeal.nD) :
    (Gen.V6 m (Launch.outs m) c main_v30 : S100000x512.Idx → EReal)
      = Cert.ReferenceIdeal.Read.val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  Stage.x_result m hpre c (vn_new m hpre c)
    fun t xblk bblk vnn w3a w3b b3 w4 b4 g be hx hb hvnn hw3a hw3b hb3 hw4 hb4 hg hbe hrange =>
      Cert.NodeBridge.node_bridge (Stage.X0 m c) (Stage.X1 m c) (Stage.X2 m c) (Stage.X3 m c) (Stage.X4 m c) (Stage.X5 m c) (Stage.X6 m c) (Stage.X7 m c) (Stage.X8 m c) (Stage.X9 m c) (Stage.X10 m c) (Stage.X11 m c) (Stage.X12 m c) (Stage.X13 m c) (Stage.X14 m c)
        t xblk bblk vnn w3a w3b b3 w4 b4 g be hx hb hvnn hw3a hw3b hb3 hw4 hb4 hg hbe hrange

end Cert.Final

end
-- ==== Proof.lean ====
import proofs.«419202_j25975962206499_3_alg».proof.Defs
import proofs.«419202_j25975962206499_3_alg».proof.Proof.Gen.Kernel
import proofs.«419202_j25975962206499_3_alg».proof.Proof.Gen.KernelIdeal
import proofs.«419202_j25975962206499_3_alg».proof.Proof.Gen.ReferenceIdeal
import proofs.«419202_j25975962206499_3_alg».proof.Proof.Gen.Pre_finite_inputs
import proofs.«419202_j25975962206499_3_alg».proof.Proof.Gen.ReferenceIdeal.Run
import proofs.«419202_j25975962206499_3_alg».proof.Proof.Gen.ReferenceIdeal.Read
import proofs.«419202_j25975962206499_3_alg».proof.Proof.BitsLaunch
import proofs.«419202_j25975962206499_3_alg».proof.Proof.Results
import proofs.«419202_j25975962206499_3_alg».proof.Proof.Final
import Idealize.ShloMosaic.Adequacy
import Idealize.ShloMosaic.Init

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Pre_finite_inputs.Gen.facts

-- Each kernel program is three host stretches and three pipelined regions in turn; each item runs to its end on the contents the one before left.
theorem frame_kernel : Cert.frame_Kernel := fun m ρ _ => Cert.Kernel.Launch.frame m ρ

theorem frame_kernelIdeal : Cert.frame_KernelIdeal := fun m ρ _ => Cert.KernelIdeal.Launch.frame m ρ

-- The reference is host operations only: its run with the results dropped.
theorem frame_reference : Cert.frame_ReferenceIdeal := fun m ρ _ =>
  (θ_run Cert.ReferenceIdeal.defs _ _).mono (fun _ h c => (h c).2.2) (Cert.ReferenceIdeal.Value.run (F := Ideal) m ρ)

-- Narrowing a float and widening it back is the identity over the extended reals.
theorem preserves : Cert.preserves_Kernel_KernelIdeal :=
  IdealRules.truncf_extf.statement _ .f32 .bf16

-- With every segment id in [0, 128) a one-hot row selects the gathered row, a product over concatenated columns splits in two, and sums regroup freely.
theorem algebraic : Cert.algebraic_KernelIdeal_ReferenceIdeal := by
  intro m ρ m' ρ' hpre hagree
  refine ⟨fun c => Cert.KernelIdeal.Gen.V6 m (Cert.KernelIdeal.Launch.outs m) c Cert.KernelIdeal.main_v30,
    fun c => Cert.KernelIdeal.Gen.V6 m (Cert.KernelIdeal.Launch.outs m) c Cert.KernelIdeal.main_v25,
    Cert.KernelIdeal.Launch.run_results m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v88_eq]
    obtain ⟨h0, h1, h2, h3, h4, h5, h6, h7, h8, h9, h10, h11, h12, h13, h14⟩ := hagree c
    rw [h0, h1, h2, h3, h4, h5, h6, h7, h8, h9, h10, h11, h12, h13, h14]
    exact (Cert.Final.x_new m hpre c).symm
  · rw [Cert.ReferenceIdeal.Read.val_main_v46_eq]
    obtain ⟨h0, h1, h2, h3, h4, h5, h6, h7, -, -, -, -, -, -, h14⟩ := hagree c
    rw [h0, h1, h2, h3, h4, h5, h6, h7, h14]
    exact (Cert.Final.vn_new m hpre c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
